-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v235) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S3x256x32 : Shape := ⟨3, ![3, 256, 32]⟩
abbrev S3x32 : Shape := ⟨2, ![3, 32]⟩
abbrev S2x96x64 : Shape := ⟨3, ![2, 96, 64]⟩
abbrev S2x64 : Shape := ⟨2, ![2, 64]⟩
abbrev S3x128x32 : Shape := ⟨3, ![3, 128, 32]⟩
abbrev S2x96x128 : Shape := ⟨3, ![2, 96, 128]⟩
abbrev S2x128 : Shape := ⟨2, ![2, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x256x32 : S_.BroadcastsInDim S3x256x32 (![] : Fin 0 → Fin S3x256x32.rank)
  reducesTo_S3x256x32_S_d0_1_2 : S3x256x32.ReducesTo [0, 1, 2] S_
  bcast_S_S3x32 : S_.BroadcastsInDim S3x32 (![] : Fin 0 → Fin S3x32.rank)
  reducesTo_S3x32_S_d0_1 : S3x32.ReducesTo [0, 1] S_
  bcast_S_S2x96x64 : S_.BroadcastsInDim S2x96x64 (![] : Fin 0 → Fin S2x96x64.rank)
  reducesTo_S2x96x64_S_d0_1_2 : S2x96x64.ReducesTo [0, 1, 2] S_
  bcast_S_S2x64 : S_.BroadcastsInDim S2x64 (![] : Fin 0 → Fin S2x64.rank)
  reducesTo_S2x64_S_d0_1 : S2x64.ReducesTo [0, 1] S_
  bcast_S_S3x128x32 : S_.BroadcastsInDim S3x128x32 (![] : Fin 0 → Fin S3x128x32.rank)
  reducesTo_S3x128x32_S_d0_1_2 : S3x128x32.ReducesTo [0, 1, 2] S_
  bcast_S_S2x96x128 : S_.BroadcastsInDim S2x96x128 (![] : Fin 0 → Fin S2x96x128.rank)
  reducesTo_S2x96x128_S_d0_1_2 : S2x96x128.ReducesTo [0, 1, 2] S_
  bcast_S_S2x128 : S_.BroadcastsInDim S2x128 (![] : Fin 0 → Fin S2x128.rank)
  reducesTo_S2x128_S_d0_1 : S2x128.ReducesTo [0, 1] S_
  bcast_S_S50000 : S_.BroadcastsInDim S50000 (![] : Fin 0 → Fin S50000.rank)
  reducesTo_S50000_S_d0 : S50000.ReducesTo [0] S_

variable [Facts]

def fn_part2 {F : FTy → Type} [FloatOps F] (main_arg3 : IVec S50000 32) (main_arg10 : FVec F S2x96x128 .f32) (main_arg11 : FVec F S2x128 .f32) (main_v33 : IVec S_ 1) : IVec S_ 1 :=
  let main_v34 : FVec F S2x96x128 .f32 := Host.absf main_arg10
  let main_cst_12 : FVec F S_ .f32 := constant S_ .f32 0x7F800000#32
  let main_v35 : FVec F S2x96x128 .f32 := broadcastInDim S2x96x128 ![] bcast_S_S2x96x128 main_cst_12
  let main_v36 : IVec S2x96x128 1 := cmpf .olt main_v34 main_v35
  let main_c_13 : IVec S_ 1 := constantI S_ 1 1#1
  let main_v37 : IVec S_ 1 := (fun x v => Host.reduce IntOp.andi x v reducesTo_S2x96x128_S_d0_1_2 h_S_) main_v36 main_c_13
  let main_v38 : IVec S_ 1 := andi main_v33 main_v37
  let main_v39 : FVec F S2x128 .f32 := Host.absf main_arg11
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  let main_c_16 : IVec S_ 32 := constantI S_ 32 0#32
  let main_v44 : IVec S50000 32 := broadcastInDim S50000 ![] bcast_S_S50000 main_c_16
  let main_v45 : IVec S50000 1 := cmpi .eq main_arg3 main_v44
  let main_c_17 : IVec S_ 32 := constantI S_ 32 1#32
  let main_v46 : IVec S50000 32 := broadcastInDim S50000 ![] bcast_S_S50000 main_c_17
  let main_v47 : IVec S50000 1 := cmpi .eq main_arg3 main_v46
  let main_v48 : IVec S50000 1 := ori main_v45 main_v47
  let main_c_18 : IVec S_ 1 := constantI S_ 1 1#1
  let main_v49 : IVec S_ 1 := (fun x v => Host.reduce IntOp.andi x v reducesTo_S50000_S_d0 h_S_) main_v48 main_c_18
  let main_v50 : IVec S_ 1 := andi main_v43 main_v49
  main_v50

def fn_part1 {F : FTy → Type} [FloatOps F] (main_arg3 : IVec S50000 32) (main_arg7 : FVec F S2x64 .f32) (main_arg8 : FVec F S3x128x32 .f32) (main_arg9 : FVec F S3x32 .f32) (main_arg10 : FVec F S2x96x128 .f32) (main_arg11 : FVec F S2x128 .f32) (main_v13 : IVec S_ 1) (main_v16 : IVec S2x96x64 1) : IVec S_ 1 :=
  let main_c_5 : IVec S_ 1 := constantI S_ 1 1#1
  let main_v17 : IVec S_ 1 := (fun x v => Host.reduce IntOp.andi x v reducesTo_S2x96x64_S_d0_1_2 h_S_) main_v16 main_c_5
  let main_v18 : IVec S_ 1 := andi main_v13 main_v17
  let main_v19 : FVec F S2x64 .f32 := Host.absf main_arg7
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  let main_v24 : FVec F S3x128x32 .f32 := Host.absf main_arg8
  let main_cst_8 : FVec F S_ .f32 := constant S_ .f32 0x7F800000#32
  let main_v25 : FVec F S3x128x32 .f32 := broadcastInDim S3x128x32 ![] bcast_S_S3x128x32 main_cst_8
  let main_v26 : IVec S3x128x32 1 := cmpf .olt main_v24 main_v25
  let main_c_9 : IVec S_ 1 := constantI S_ 1 1#1
  let main_v27 : IVec S_ 1 := (fun x v => Host.reduce IntOp.andi x v reducesTo_S3x128x32_S_d0_1_2 h_S_) main_v26 main_c_9
  let main_v28 : IVec S_ 1 := andi main_v23 main_v27
  let main_v29 : FVec F S3x32 .f32 := Host.absf main_arg9
  let main_cst_10 : FVec F S_ .f32 := constant S_ .f32 0x7F800000#32
  let main_v30 : FVec F S3x32 .f32 := broadcastInDim S3x32 ![] bcast_S_S3x32 main_cst_10
  let main_v31 : IVec S3x32 1 := cmpf .olt main_v29 main_v30
  let main_c_11 : IVec S_ 1 := constantI S_ 1 1#1
  let main_v32 : IVec S_ 1 := (fun x v => Host.reduce IntOp.andi x v reducesTo_S3x32_S_d0_1 h_S_) main_v31 main_c_11
  let main_v33 : IVec S_ 1 := andi main_v28 main_v32
  fn_part2 (F := F) main_arg3 main_arg10 main_arg11 main_v33

def fn {F : FTy → Type} [FloatOps F] (main_arg0 : FVec F S50000x128 .f32) (main_arg1 : IVec S2x800000 32) (main_arg2 : IVec S800000 32) (main_arg3 : IVec S50000 32) (main_arg4 : FVec F S3x256x32 .f32) (main_arg5 : FVec F S3x32 .f32) (main_arg6 : FVec F S2x96x64 .f32) (main_arg7 : FVec F S2x64 .f32) (main_arg8 : FVec F S3x128x32 .f32) (main_arg9 : FVec F S3x32 .f32) (main_arg10 : FVec F S2x96x128 .f32) (main_arg11 : FVec F S2x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x256x32 .f32 := Host.absf main_arg4
  let main_cst_0 : FVec F S_ .f32 := constant S_ .f32 0x7F800000#32
  let main_v5 : FVec F S3x256x32 .f32 := broadcastInDim S3x256x32 ![] bcast_S_S3x256x32 main_cst_0
  let main_v6 : IVec S3x256x32 1 := cmpf .olt main_v4 main_v5
  let main_c_1 : IVec S_ 1 := constantI S_ 1 1#1
  let main_v7 : IVec S_ 1 := (fun x v => Host.reduce IntOp.andi x v reducesTo_S3x256x32_S_d0_1_2 h_S_) main_v6 main_c_1
  let main_v8 : IVec S_ 1 := andi main_v3 main_v7
  let main_v9 : FVec F S3x32 .f32 := Host.absf main_arg5
  let main_cst_2 : FVec F S_ .f32 := constant S_ .f32 0x7F800000#32
  let main_v10 : FVec F S3x32 .f32 := broadcastInDim S3x32 ![] bcast_S_S3x32 main_cst_2
  let main_v11 : IVec S3x32 1 := cmpf .olt main_v9 main_v10
  let main_c_3 : IVec S_ 1 := constantI S_ 1 1#1
  let main_v12 : IVec S_ 1 := (fun x v => Host.reduce IntOp.andi x v reducesTo_S3x32_S_d0_1 h_S_) main_v11 main_c_3
  let main_v13 : IVec S_ 1 := andi main_v8 main_v12
  let main_v14 : FVec F S2x96x64 .f32 := Host.absf main_arg6
  let main_cst_4 : FVec F S_ .f32 := constant S_ .f32 0x7F800000#32
  let main_v15 : FVec F S2x96x64 .f32 := broadcastInDim S2x96x64 ![] bcast_S_S2x96x64 main_cst_4
  let main_v16 : IVec S2x96x64 1 := cmpf .olt main_v14 main_v15
  fn_part1 (F := F) main_arg3 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S3x256x32 : Shape := ⟨3, ![3, 256, 32]⟩
abbrev S3x32 : Shape := ⟨2, ![3, 32]⟩
abbrev S2x96x64 : Shape := ⟨3, ![2, 96, 64]⟩
abbrev S2x64 : Shape := ⟨2, ![2, 64]⟩
abbrev S3x128x32 : Shape := ⟨3, ![3, 128, 32]⟩
abbrev S2x96x128 : Shape := ⟨3, ![2, 96, 128]⟩
abbrev S2x128 : Shape := ⟨2, ![2, 128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S256x3x32 : Shape := ⟨3, ![256, 3, 32]⟩
abbrev S256x96 : Shape := ⟨2, ![256, 96]⟩
abbrev S1x96 : Shape := ⟨2, ![1, 96]⟩
abbrev S800000x96 : Shape := ⟨2, ![800000, 96]⟩
abbrev S8000x256 : Shape := ⟨2, ![8000, 256]⟩
abbrev S8000x1 : Shape := ⟨2, ![8000, 1]⟩
abbrev S8000x96 : Shape := ⟨2, ![8000, 96]⟩
abbrev S50000x96 : Shape := ⟨2, ![50000, 96]⟩
abbrev S1x3 : Shape := ⟨2, ![1, 3]⟩
abbrev S800000x3 : Shape := ⟨2, ![800000, 3]⟩
abbrev S50000x3 : Shape := ⟨2, ![50000, 3]⟩
abbrev S50000x3x32 : Shape := ⟨3, ![50000, 3, 32]⟩
abbrev S50000x1 : Shape := ⟨2, ![50000, 1]⟩
abbrev S1x96x64 : Shape := ⟨3, ![1, 96, 64]⟩
abbrev S96x64 : Shape := ⟨2, ![96, 64]⟩
abbrev S96x128 : Shape := ⟨2, ![96, 128]⟩
abbrev S1x64 : Shape := ⟨2, ![1, 64]⟩
abbrev S64 : Shape := ⟨1, ![64]⟩
abbrev S128 : Shape := ⟨1, ![128]⟩
abbrev S1x128 : Shape := ⟨2, ![1, 128]⟩
abbrev S50000x64 : Shape := ⟨2, ![50000, 64]⟩
abbrev S5000x96 : Shape := ⟨2, ![5000, 96]⟩
abbrev S5000x1 : Shape := ⟨2, ![5000, 1]⟩
abbrev S5000x64 : Shape := ⟨2, ![5000, 64]⟩
abbrev S5000x128 : Shape := ⟨2, ![5000, 128]⟩
abbrev S800000x64 : Shape := ⟨2, ![800000, 64]⟩
abbrev S128x3x32 : Shape := ⟨3, ![128, 3, 32]⟩
abbrev S128x96 : Shape := ⟨2, ![128, 96]⟩
abbrev S8000x128 : Shape := ⟨2, ![8000, 128]⟩
abbrev S1x96x128 : Shape := ⟨3, ![1, 96, 128]⟩
abbrev S96x256 : Shape := ⟨2, ![96, 256]⟩
abbrev S256 : Shape := ⟨1, ![256]⟩
abbrev S1x256 : Shape := ⟨2, ![1, 256]⟩
abbrev S5000x256 : Shape := ⟨2, ![5000, 256]⟩

abbrev nBuf : Space → Nat
  | .hbm => 132
  | .vmem => 32
  | .smem => 0
  | _ => 0

abbrev hbmTy0_0 (i : Nat) : BufTy := match i % 128 with
  | 0 => ⟨S50000x128, .f32⟩
  | 1 => ⟨S2x800000, .i32⟩
  | 2 => ⟨S800000, .i32⟩
  | 3 => ⟨S50000, .i32⟩
  | 4 => ⟨S3x256x32, .f32⟩
  | 5 => ⟨S3x32, .f32⟩
  | 6 => ⟨S2x96x64, .f32⟩
  | 7 => ⟨S2x64, .f32⟩
  | 8 => ⟨S3x128x32, .f32⟩
  | 9 => ⟨S3x32, .f32⟩
  | 10 => ⟨S2x96x128, .f32⟩
  | 11 => ⟨S2x128, .f32⟩
  | 12 => ⟨S1x800000, .i32⟩
  | 13 => ⟨S800000, .i32⟩
  | 14 => ⟨S1x800000, .i32⟩
  | 15 => ⟨S800000, .i32⟩
  | 16 => ⟨S50000x128, .bf16⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x128, .bf16⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x128, .bf16⟩
  | 35 => ⟨S800000x256, .bf16⟩
  | 36 => ⟨S800000x1, .i32⟩
  | 37 => ⟨S256x3x32, .f32⟩
  | 38 => ⟨S256x96, .f32⟩
  | 39 => ⟨S1x96, .f32⟩
  | 40 => ⟨S800000x96, .f32⟩
  | 41 => ⟨S_, .f32⟩
  | 42 => ⟨S50000x96, .f32⟩
  | 43 => ⟨S800000x1, .i32⟩
  | 44 => ⟨S50000x96, .f32⟩
  | 45 => ⟨S800000x1, .i32⟩
  | 46 => ⟨S1x3, .i32⟩
  | 47 => ⟨S800000x3, .i32⟩
  | 48 => ⟨S800000x3, .i32⟩
  | 49 => ⟨S800000x3, .i1⟩
  | 50 => ⟨S800000x3, .f32⟩
  | 51 => ⟨S_, .f32⟩
  | 52 => ⟨S50000x3, .f32⟩
  | 53 => ⟨S800000x1, .i32⟩
  | 54 => ⟨S50000x3, .f32⟩
  | 55 => ⟨S50000x3x32, .f32⟩
  | 56 => ⟨S50000x96, .f32⟩
  | 57 => ⟨S_, .f32⟩
  | 58 => ⟨S50000x96, .f32⟩
  | 59 => ⟨S50000x96, .f32⟩
  | 60 => ⟨S50000x96, .f32⟩
  | 61 => ⟨S50000x1, .i32⟩
  | 62 => ⟨S1x96x64, .f32⟩
  | 63 => ⟨S96x64, .f32⟩
  | 64 => ⟨S1x96x64, .f32⟩
  | 65 => ⟨S96x64, .f32⟩
  | 66 => ⟨S96x128, .f32⟩
  | 67 => ⟨S1x64, .f32⟩
  | 68 => ⟨S64, .f32⟩
  | 69 => ⟨S1x64, .f32⟩
  | 70 => ⟨S64, .f32⟩
  | 71 => ⟨S128, .f32⟩
  | 72 => ⟨S1x128, .f32⟩
  | 73 => ⟨S50000x64, .f32⟩
  | 74 => ⟨S50000x64, .bf16⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x64, .bf16⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x64, .bf16⟩
  | 93 => ⟨S800000x128, .bf16⟩
  | 94 => ⟨S800000x1, .i32⟩
  | 95 => ⟨S128x3x32, .f32⟩
  | 96 => ⟨S128x96, .f32⟩
  | 97 => ⟨S1x96, .f32⟩
  | 98 => ⟨S800000x96, .f32⟩
  | 99 => ⟨S_, .f32⟩
  | 100 => ⟨S50000x96, .f32⟩
  | 101 => ⟨S800000x1, .i32⟩
  | 102 => ⟨S50000x96, .f32⟩
  | 103 => ⟨S800000x1, .i32⟩
  | 104 => ⟨S1x3, .i32⟩
  | 105 => ⟨S800000x3, .i32⟩
  | 106 => ⟨S800000x3, .i32⟩
  | 107 => ⟨S800000x3, .i1⟩
  | 108 => ⟨S800000x3, .f32⟩
  | 109 => ⟨S_, .f32⟩
  | 110 => ⟨S50000x3, .f32⟩
  | 111 => ⟨S800000x1, .i32⟩
  | 112 => ⟨S50000x3, .f32⟩
  | 113 => ⟨S50000x3x32, .f32⟩
  | 114 => ⟨S50000x96, .f32⟩
  | 115 => ⟨S_, .f32⟩
  | 116 => ⟨S50000x96, .f32⟩
  | 117 => ⟨S50000x96, .f32⟩
  | 118 => ⟨S50000x96, .f32⟩
  | 119 => ⟨S50000x1, .i32⟩
  | 120 => ⟨S1x96x128, .f32⟩
  | 121 => ⟨S96x128, .f32⟩
  | 122 => ⟨S1x96x128, .f32⟩
  | 123 => ⟨S96x128, .f32⟩
  | 124 => ⟨S96x256, .f32⟩
  | 125 => ⟨S1x128, .f32⟩
  | 126 => ⟨S128, .f32⟩
  | 127 => ⟨S1x128, .f32⟩
  | _ => ⟨S50000x128, .f32⟩

abbrev hbmTy0_1 (i : Nat) : BufTy := match i % 128 with
  | 0 => ⟨S128, .f32⟩
  | 1 => ⟨S256, .f32⟩
  | 2 => ⟨S1x256, .f32⟩
  | 3 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S8000x256, .bf16⟩
  | .local _ .vmem, ⟨1, _⟩ => ⟨S8000x256, .bf16⟩
  | .local _ .vmem, ⟨2, _⟩ => ⟨S8000x1, .i32⟩
  | .local _ .vmem, ⟨3, _⟩ => ⟨S8000x1, .i32⟩
  | .local _ .vmem, ⟨4, _⟩ => ⟨S256x96, .f32⟩
  | .local _ .vmem, ⟨5, _⟩ => ⟨S1x96, .f32⟩
  | .local _ .vmem, ⟨6, _⟩ => ⟨S8000x96, .f32⟩
  | .local _ .vmem, ⟨7, _⟩ => ⟨S8000x96, .f32⟩
  | .local _ .vmem, ⟨8, _⟩ => ⟨S5000x96, .f32⟩
  | .local _ .vmem, ⟨9, _⟩ => ⟨S5000x96, .f32⟩
  | .local _ .vmem, ⟨10, _⟩ => ⟨S5000x1, .i32⟩
  | .local _ .vmem, ⟨11, _⟩ => ⟨S5000x1, .i32⟩
  | .local _ .vmem, ⟨12, _⟩ => ⟨S96x128, .f32⟩
  | .local _ .vmem, ⟨13, _⟩ => ⟨S1x128, .f32⟩
  | .local _ .vmem, ⟨14, _⟩ => ⟨S5000x64, .f32⟩
  | .local _ .vmem, ⟨15, _⟩ => ⟨S5000x64, .f32⟩
  | .local _ .vmem, ⟨16, _⟩ => ⟨S8000x128, .bf16⟩
  | .local _ .vmem, ⟨17, _⟩ => ⟨S8000x128, .bf16⟩
  | .local _ .vmem, ⟨18, _⟩ => ⟨S8000x1, .i32⟩
  | .local _ .vmem, ⟨19, _⟩ => ⟨S8000x1, .i32⟩
  | .local _ .vmem, ⟨20, _⟩ => ⟨S128x96, .f32⟩
  | .local _ .vmem, ⟨21, _⟩ => ⟨S1x96, .f32⟩
  | .local _ .vmem, ⟨22, _⟩ => ⟨S8000x96, .f32⟩
  | .local _ .vmem, ⟨23, _⟩ => ⟨S8000x96, .f32⟩
  | .local _ .vmem, ⟨24, _⟩ => ⟨S5000x96, .f32⟩
  | .local _ .vmem, ⟨25, _⟩ => ⟨S5000x96, .f32⟩
  | .local _ .vmem, ⟨26, _⟩ => ⟨S5000x1, .i32⟩
  | .local _ .vmem, ⟨27, _⟩ => ⟨S5000x1, .i32⟩
  | .local _ .vmem, ⟨28, _⟩ => ⟨S96x256, .f32⟩
  | .local _ .vmem, ⟨29, _⟩ => ⟨S1x256, .f32⟩
  | .local _ .vmem, ⟨30, _⟩ => ⟨S5000x128, .f32⟩
  | .local _ .vmem, ⟨31, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v28 : Ref sig .tc := ⟨.hbm, 50, rfl⟩
abbrev main_cst_3 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_4 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_5 : Ref sig .tc := ⟨.hbm, 75, rfl⟩
abbrev main_v51 : Ref sig .tc := ⟨.hbm, 76, rfl⟩
abbrev main_v52 : Ref sig .tc := ⟨.hbm, 77, rfl⟩
abbrev main_c_6 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_7 : Ref sig .tc := ⟨.hbm, 84, rfl⟩
abbrev main_v58 : Ref sig .tc := ⟨.hbm, 85, rfl⟩
abbrev main_v59 : Ref sig .tc := ⟨.hbm, 86, rfl⟩
abbrev main_c_8 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_9 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_call1_v0 : Ref sig .tc := ⟨.hbm, 103, rfl⟩
abbrev main_call1_v1 : Ref sig .tc := ⟨.hbm, 104, rfl⟩
abbrev main_call1_v2 : Ref sig .tc := ⟨.hbm, 105, rfl⟩
abbrev main_call1_v3 : Ref sig .tc := ⟨.hbm, 106, rfl⟩
abbrev main_call1_v4 : Ref sig .tc := ⟨.hbm, 107, rfl⟩
abbrev main_v74 : Ref sig .tc := ⟨.hbm, 108, rfl⟩
abbrev main_cst_10 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_11 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S96x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S8000x96 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S96x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  shapeCasts_S800000_S800000x1 : S800000.ShapeCasts S800000x1
  transposes_S3x256x32_S256x3x32_1_0_2 : S3x256x32.Transposes [1, 0, 2] S256x3x32
  shapeCasts_S256x3x32_S256x96 : S256x3x32.ShapeCasts S256x96
  shapeCasts_S3x32_S1x96 : S3x32.ShapeCasts S1x96
  inb_S8000x256_S8000x256_0_0 : ∀ a, (![0, 0] : Fin 2 → Nat) a + S8000x256.size a ≤ S8000x256.size a
  h_S8000x256 : 0 < S8000x256.numel
  shapeCasts_S8000x256_S8000x256 : S8000x256.ShapeCasts S8000x256
  inb_S256x96_S256x96_0_0 : ∀ a, (![0, 0] : Fin 2 → Nat) a + S256x96.size a ≤ S256x96.size a
  h_S256x96 : 0 < S256x96.numel
  shapeCasts_S256x96_S256x96 : S256x96.ShapeCasts S256x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S8000x96 : S1x96.Broadcasts S8000x96
  iota_S8000x96_d1_w32 : S8000x96.Iotas .tc 32 [1]
  natLt_1_32 : 1 < 32
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x96 : S8000x1.Broadcasts S8000x96
  inb_S8000x96_S8000x96_0_0 : ∀ a, (![0, 0] : Fin 2 → Nat) a + S8000x96.size a ≤ S8000x96.size a
  h_S8000x96 : 0 < S8000x96.numel
  bcast_S_S50000x96 : S_.BroadcastsInDim S50000x96 (![] : Fin 0 → Fin S50000x96.rank)
  bcast_S800000x1_S800000x3_0_1 : S800000x1.BroadcastsInDim S800000x3 (![0, 1] : Fin 2 → Fin S800000x3.rank)
  bcast_S1x3_S800000x3_0_1 : S1x3.BroadcastsInDim S800000x3 (![0, 1] : Fin 2 → Fin S800000x3.rank)
  bcast_S_S50000x3 : S_.BroadcastsInDim S50000x3 (![] : Fin 0 → Fin S50000x3.rank)
  bcast_S50000x3_S50000x3x32_0_1 : S50000x3.BroadcastsInDim S50000x3x32 (![0, 1] : Fin 2 → Fin S50000x3x32.rank)
  shapeCasts_S50000x3x32_S50000x96 : S50000x3x32.ShapeCasts S50000x96
  shapeCasts_S50000_S50000x1 : S50000.ShapeCasts S50000x1
  slices_S2x96x64_S1x96x64_0_0_0 : S2x96x64.Slices ![0, 0, 0] S1x96x64
  shapeCasts_S1x96x64_S96x64 : S1x96x64.ShapeCasts S96x64
  slices_S2x96x64_S1x96x64_1_0_0 : S2x96x64.Slices ![1, 0, 0] S1x96x64
  concatenates_S96x64_S96x64_S96x128_d1 : Shape.Concatenates [S96x64, S96x64] S96x128 1
  slices_S2x64_S1x64_0_0 : S2x64.Slices ![0, 0] S1x64
  shapeCasts_S1x64_S64 : S1x64.ShapeCasts S64
  slices_S2x64_S1x64_1_0 : S2x64.Slices ![1, 0] S1x64
  concatenates_S64_S64_S128_d0 : Shape.Concatenates [S64, S64] S128 0
  shapeCasts_S128_S1x128 : S128.ShapeCasts S1x128
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  inb_S96x128_S96x128_0_0 : ∀ a, (![0, 0] : Fin 2 → Nat) a + S96x128.size a ≤ S96x128.size a
  h_S96x128 : 0 < S96x128.numel
  shapeCasts_S96x128_S96x128 : S96x128.ShapeCasts S96x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S5000x128_o0_0_S5000x64 : S5000x128.Slices ![0, 0] S5000x64
  slices_S5000x128_o0_64_S5000x64 : S5000x128.Slices ![0, 64] S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  concatenates_S800000x64_S800000x64_S800000x128_d1 : Shape.Concatenates [S800000x64, S800000x64] S800000x128 1
  transposes_S3x128x32_S128x3x32_1_0_2 : S3x128x32.Transposes [1, 0, 2] S128x3x32
  shapeCasts_S128x3x32_S128x96 : S128x3x32.ShapeCasts S128x96
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x96_S128x96_0_0 : ∀ a, (![0, 0] : Fin 2 → Nat) a + S128x96.size a ≤ S128x96.size a
  h_S128x96 : 0 < S128x96.numel
  shapeCasts_S128x96_S128x96 : S128x96.ShapeCasts S128x96
  slices_S2x96x128_S1x96x128_0_0_0 : S2x96x128.Slices ![0, 0, 0] S1x96x128
  shapeCasts_S1x96x128_S96x128 : S1x96x128.ShapeCasts S96x128
  slices_S2x96x128_S1x96x128_1_0_0 : S2x96x128.Slices ![1, 0, 0] S1x96x128
  concatenates_S96x128_S96x128_S96x256_d1 : Shape.Concatenates [S96x128, S96x128] S96x256 1
  slices_S2x128_S1x128_0_0 : S2x128.Slices ![0, 0] S1x128
  shapeCasts_S1x128_S128 : S1x128.ShapeCasts S128
  slices_S2x128_S1x128_1_0 : S2x128.Slices ![1, 0] S1x128
  concatenates_S128_S128_S256_d0 : Shape.Concatenates [S128, S128] S256 0
  shapeCasts_S256_S1x256 : S256.ShapeCasts S1x256
  inb_S96x256_S96x256_0_0 : ∀ a, (![0, 0] : Fin 2 → Nat) a + S96x256.size a ≤ S96x256.size a
  h_S96x256 : 0 < S96x256.numel
  shapeCasts_S96x256_S96x256 : S96x256.ShapeCasts S96x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  slices_S5000x256_o0_0_S5000x128 : S5000x256.Slices ![0, 0] S5000x128
  slices_S5000x256_o0_128_S5000x128 : S5000x256.Slices ![0, 128] S5000x128
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  gather_S50000x128_S800000x1_S800000x128_1_0_n_n_0_1_1128_wf : GatherDims.WF S50000x128 S800000x1 S800000x128 [1] [0] [] [0] [] 1 ![1, 128]
  dot_S8000x256_S256x96_S8000x96_1_0_0_1_n_n_wf : DotDims.WF S8000x256 S256x96 S8000x96 [1] [0] [0] [1] [] []
  scatter_S50000x96_S800000x1_S800000x96_1_0_0_1_wf : ScatterDims.WF S50000x96 S800000x1 S800000x96 [1] [0] [0] 1
  scatter_S50000x3_S800000x1_S800000x3_1_0_0_1_wf : ScatterDims.WF S50000x3 S800000x1 S800000x3 [1] [0] [0] 1
  dot_S5000x96_S96x128_S5000x128_1_0_0_1_n_n_wf : DotDims.WF S5000x96 S96x128 S5000x128 [1] [0] [0] [1] [] []
  gather_S50000x64_S800000x1_S800000x64_1_0_n_n_0_1_164_wf : GatherDims.WF S50000x64 S800000x1 S800000x64 [1] [0] [] [0] [] 1 ![1, 64]
  dot_S8000x128_S128x96_S8000x96_1_0_0_1_n_n_wf : DotDims.WF S8000x128 S128x96 S8000x96 [1] [0] [0] [1] [] []
  dot_S5000x96_S96x256_S5000x256_1_0_0_1_n_n_wf : DotDims.WF S5000x96 S96x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x256.size a ≤ S800000x256.size a
  hwx0_0 : ∀ i : grid0.Coords, EltTy.bits .bf16 = 32 ∨ (Rect.block (s := S800000x256) S8000x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x1.size a ≤ S800000x1.size a
  hwx0_1 : ∀ i : grid0.Coords, EltTy.bits .i32 = 32 ∨ (Rect.block (s := S800000x1) S8000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x96.size a ≤ S256x96.size a
  hwx0_2 : ∀ i : grid0.Coords, EltTy.bits .f32 = 32 ∨ (Rect.block (s := S256x96) S256x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x96.size a ≤ S1x96.size a
  hwx0_3 : ∀ i : grid0.Coords, EltTy.bits .f32 = 32 ∨ (Rect.block (s := S1x96) S1x96.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x96.size a ≤ S800000x96.size a
  hwx0_4 : ∀ i : grid0.Coords, EltTy.bits .f32 = 32 ∨ (Rect.block (s := S800000x96) S8000x96.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .i32 = 32 ∨ (Rect.block (s := S50000x1) S5000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x128.size a ≤ S96x128.size a
  hwx1_2 : ∀ i : grid1.Coords, EltTy.bits .f32 = 32 ∨ (Rect.block (s := S96x128) S96x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S800000x128.size a
  hwx2_0 : ∀ i : grid2.Coords, EltTy.bits .bf16 = 32 ∨ (Rect.block (s := S800000x128) S8000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x1.size a ≤ S800000x1.size a
  hwx2_1 : ∀ i : grid2.Coords, EltTy.bits .i32 = 32 ∨ (Rect.block (s := S800000x1) S8000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x96.size a ≤ S128x96.size a
  hwx2_2 : ∀ i : grid2.Coords, EltTy.bits .f32 = 32 ∨ (Rect.block (s := S128x96) S128x96.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x96.size a ≤ S1x96.size a
  hwx2_3 : ∀ i : grid2.Coords, EltTy.bits .f32 = 32 ∨ (Rect.block (s := S1x96) S1x96.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8000x96.size a ≤ S800000x96.size a
  hwx2_4 : ∀ i : grid2.Coords, EltTy.bits .f32 = 32 ∨ (Rect.block (s := S800000x96) S8000x96.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x96.size a ≤ S50000x96.size a
  hwx3_0 : ∀ i : grid3.Coords, EltTy.bits .f32 = 32 ∨ (Rect.block (s := S50000x96) S5000x96.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .i32 = 32 ∨ (Rect.block (s := S50000x1) S5000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S96x256.size a ≤ S96x256.size a
  hwx3_2 : ∀ i : grid3.Coords, EltTy.bits .f32 = 32 ∨ (Rect.block (s := S96x256) S96x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x256_S256x96_S8000x96_1_0_0_1_n_n : DotDims S8000x256 S256x96 S8000x96 where
  lhsContracting := [1]
  rhsContracting := [0]
  lhsNonContracting := [0]
  rhsNonContracting := [1]
  lhsBatch := []
  rhsBatch := []
  wf := dot_S8000x256_S256x96_S8000x96_1_0_0_1_n_n_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def dot_S5000x96_S96x128_S5000x128_1_0_0_1_n_n : DotDims S5000x96 S96x128 S5000x128 where
  lhsContracting := [1]
  rhsContracting := [0]
  lhsNonContracting := [0]
  rhsNonContracting := [1]
  lhsBatch := []
  rhsBatch := []
  wf := dot_S5000x96_S96x128_S5000x128_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x128_S128x96_S8000x96_1_0_0_1_n_n : DotDims S8000x128 S128x96 S8000x96 where
  lhsContracting := [1]
  rhsContracting := [0]
  lhsNonContracting := [0]
  rhsNonContracting := [1]
  lhsBatch := []
  rhsBatch := []
  wf := dot_S8000x128_S128x96_S8000x96_1_0_0_1_n_n_wf
def dot_S5000x96_S96x256_S5000x256_1_0_0_1_n_n : DotDims S5000x96 S96x256 S5000x256 where
  lhsContracting := [1]
  rhsContracting := [0]
  lhsNonContracting := [0]
  rhsNonContracting := [1]
  lhsBatch := []
  rhsBatch := []
  wf := dot_S5000x96_S96x256_S5000x256_1_0_0_1_n_n_wf

abbrev win0_0 : Pipeline.Window sig grid0 :=
  Pipeline.Window.ofSpec (Memref.whole main_v19) S8000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S8000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S256x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S8000x96.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v36) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S96x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v65) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S8000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v68) S128x96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v69) S1x96.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v70) S8000x96.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v82) S5000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v83) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v88) S96x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v94) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v95) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S3x256x32 : Shape := ⟨3, ![3, 256, 32]⟩
abbrev S3x32 : Shape := ⟨2, ![3, 32]⟩
abbrev S2x96x64 : Shape := ⟨3, ![2, 96, 64]⟩
abbrev S2x64 : Shape := ⟨2, ![2, 64]⟩
abbrev S3x128x32 : Shape := ⟨3, ![3, 128, 32]⟩
abbrev S2x96x128 : Shape := ⟨3, ![2, 96, 128]⟩
abbrev S2x128 : Shape := ⟨2, ![2, 128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S1x256x32 : Shape := ⟨3, ![1, 256, 32]⟩
abbrev S256x32 : Shape := ⟨2, ![256, 32]⟩
abbrev S800000x32 : Shape := ⟨2, ![800000, 32]⟩
abbrev S1x32 : Shape := ⟨2, ![1, 32]⟩
abbrev S32 : Shape := ⟨1, ![32]⟩
abbrev S50000x32 : Shape := ⟨2, ![50000, 32]⟩
abbrev S50000x1 : Shape := ⟨2, ![50000, 1]⟩
abbrev S50000x96 : Shape := ⟨2, ![50000, 96]⟩
abbrev S1x96x64 : Shape := ⟨3, ![1, 96, 64]⟩
abbrev S96x64 : Shape := ⟨2, ![96, 64]⟩
abbrev S50000x64 : Shape := ⟨2, ![50000, 64]⟩
abbrev S1x64 : Shape := ⟨2, ![1, 64]⟩
abbrev S64 : Shape := ⟨1, ![64]⟩
abbrev S800000x64 : Shape := ⟨2, ![800000, 64]⟩
abbrev S1x128x32 : Shape := ⟨3, ![1, 128, 32]⟩
abbrev S128x32 : Shape := ⟨2, ![128, 32]⟩
abbrev S1x96x128 : Shape := ⟨3, ![1, 96, 128]⟩
abbrev S96x128 : Shape := ⟨2, ![96, 128]⟩
abbrev S1x128 : Shape := ⟨2, ![1, 128]⟩
abbrev S128 : Shape := ⟨1, ![128]⟩

abbrev nBuf : Space → Nat
  | .hbm => 304
  | .vmem => 0
  | .smem => 0
  | _ => 0

abbrev hbmTy0_0 (i : Nat) : BufTy := match i % 128 with
  | 0 => ⟨S50000x128, .f32⟩
  | 1 => ⟨S2x800000, .i32⟩
  | 2 => ⟨S800000, .i32⟩
  | 3 => ⟨S50000, .i32⟩
  | 4 => ⟨S3x256x32, .f32⟩
  | 5 => ⟨S3x32, .f32⟩
  | 6 => ⟨S2x96x64, .f32⟩
  | 7 => ⟨S2x64, .f32⟩
  | 8 => ⟨S3x128x32, .f32⟩
  | 9 => ⟨S3x32, .f32⟩
  | 10 => ⟨S2x96x128, .f32⟩
  | 11 => ⟨S2x128, .f32⟩
  | 12 => ⟨S1x800000, .i32⟩
  | 13 => ⟨S800000, .i32⟩
  | 14 => ⟨S1x800000, .i32⟩
  | 15 => ⟨S800000, .i32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x128, .f32⟩
  | 34 => ⟨S800000x256, .f32⟩
  | 35 => ⟨S1x256x32, .f32⟩
  | 36 => ⟨S256x32, .f32⟩
  | 37 => ⟨S800000x32, .f32⟩
  | 38 => ⟨S1x32, .f32⟩
  | 39 => ⟨S32, .f32⟩
  | 40 => ⟨S1x32, .f32⟩
  | 41 => ⟨S800000x32, .f32⟩
  | 42 => ⟨S800000x32, .f32⟩
  | 43 => ⟨S_, .f32⟩
  | 44 => ⟨S800000x32, .f32⟩
  | 45 => ⟨S800000x32, .f32⟩
  | 46 => ⟨S_, .i32⟩
  | 47 => ⟨S800000, .i32⟩
  | 48 => ⟨S800000, .i1⟩
  | 49 => ⟨S800000, .f32⟩
  | 50 => ⟨S800000x1, .f32⟩
  | 51 => ⟨S800000x32, .f32⟩
  | 52 => ⟨S800000x32, .f32⟩
  | 53 => ⟨S_, .f32⟩
  | 54 => ⟨S50000x32, .f32⟩
  | 55 => ⟨S800000x1, .i32⟩
  | 56 => ⟨S50000x32, .f32⟩
  | 57 => ⟨S_, .f32⟩
  | 58 => ⟨S50000, .f32⟩
  | 59 => ⟨S800000x1, .i32⟩
  | 60 => ⟨S50000, .f32⟩
  | 61 => ⟨S_, .f32⟩
  | 62 => ⟨S50000, .f32⟩
  | 63 => ⟨S50000, .f32⟩
  | 64 => ⟨S50000x1, .f32⟩
  | 65 => ⟨S50000x32, .f32⟩
  | 66 => ⟨S50000x32, .f32⟩
  | 67 => ⟨S1x256x32, .f32⟩
  | 68 => ⟨S256x32, .f32⟩
  | 69 => ⟨S800000x32, .f32⟩
  | 70 => ⟨S1x32, .f32⟩
  | 71 => ⟨S32, .f32⟩
  | 72 => ⟨S1x32, .f32⟩
  | 73 => ⟨S800000x32, .f32⟩
  | 74 => ⟨S800000x32, .f32⟩
  | 75 => ⟨S_, .f32⟩
  | 76 => ⟨S800000x32, .f32⟩
  | 77 => ⟨S800000x32, .f32⟩
  | 78 => ⟨S_, .i32⟩
  | 79 => ⟨S800000, .i32⟩
  | 80 => ⟨S800000, .i1⟩
  | 81 => ⟨S800000, .f32⟩
  | 82 => ⟨S800000x1, .f32⟩
  | 83 => ⟨S800000x32, .f32⟩
  | 84 => ⟨S800000x32, .f32⟩
  | 85 => ⟨S_, .f32⟩
  | 86 => ⟨S50000x32, .f32⟩
  | 87 => ⟨S800000x1, .i32⟩
  | 88 => ⟨S50000x32, .f32⟩
  | 89 => ⟨S_, .f32⟩
  | 90 => ⟨S50000, .f32⟩
  | 91 => ⟨S800000x1, .i32⟩
  | 92 => ⟨S50000, .f32⟩
  | 93 => ⟨S_, .f32⟩
  | 94 => ⟨S50000, .f32⟩
  | 95 => ⟨S50000, .f32⟩
  | 96 => ⟨S50000x1, .f32⟩
  | 97 => ⟨S50000x32, .f32⟩
  | 98 => ⟨S50000x32, .f32⟩
  | 99 => ⟨S1x256x32, .f32⟩
  | 100 => ⟨S256x32, .f32⟩
  | 101 => ⟨S800000x32, .f32⟩
  | 102 => ⟨S1x32, .f32⟩
  | 103 => ⟨S32, .f32⟩
  | 104 => ⟨S1x32, .f32⟩
  | 105 => ⟨S800000x32, .f32⟩
  | 106 => ⟨S800000x32, .f32⟩
  | 107 => ⟨S_, .f32⟩
  | 108 => ⟨S800000x32, .f32⟩
  | 109 => ⟨S800000x32, .f32⟩
  | 110 => ⟨S_, .i32⟩
  | 111 => ⟨S800000, .i32⟩
  | 112 => ⟨S800000, .i1⟩
  | 113 => ⟨S800000, .f32⟩
  | 114 => ⟨S800000x1, .f32⟩
  | 115 => ⟨S800000x32, .f32⟩
  | 116 => ⟨S800000x32, .f32⟩
  | 117 => ⟨S_, .f32⟩
  | 118 => ⟨S50000x32, .f32⟩
  | 119 => ⟨S800000x1, .i32⟩
  | 120 => ⟨S50000x32, .f32⟩
  | 121 => ⟨S_, .f32⟩
  | 122 => ⟨S50000, .f32⟩
  | 123 => ⟨S800000x1, .i32⟩
  | 124 => ⟨S50000, .f32⟩
  | 125 => ⟨S_, .f32⟩
  | 126 => ⟨S50000, .f32⟩
  | 127 => ⟨S50000, .f32⟩
  | _ => ⟨S50000x128, .f32⟩

abbrev hbmTy0_1 (i : Nat) : BufTy := match i % 128 with
  | 0 => ⟨S50000x1, .f32⟩
  | 1 => ⟨S50000x32, .f32⟩
  | 2 => ⟨S50000x32, .f32⟩
  | 3 => ⟨S50000x96, .f32⟩
  | 4 => ⟨S1x96x64, .f32⟩
  | 5 => ⟨S96x64, .f32⟩
  | 6 => ⟨S50000x64, .f32⟩
  | 7 => ⟨S1x64, .f32⟩
  | 8 => ⟨S64, .f32⟩
  | 9 => ⟨S1x64, .f32⟩
  | 10 => ⟨S50000x64, .f32⟩
  | 11 => ⟨S50000x64, .f32⟩
  | 12 => ⟨S_, .f32⟩
  | 13 => ⟨S50000x64, .f32⟩
  | 14 => ⟨S50000x64, .f32⟩
  | 15 => ⟨S1x96x64, .f32⟩
  | 16 => ⟨S96x64, .f32⟩
  | 17 => ⟨S50000x64, .f32⟩
  | 18 => ⟨S1x64, .f32⟩
  | 19 => ⟨S64, .f32⟩
  | 20 => ⟨S1x64, .f32⟩
  | 21 => ⟨S50000x64, .f32⟩
  | 22 => ⟨S50000x64, .f32⟩
  | 23 => ⟨S_, .f32⟩
  | 24 => ⟨S50000x64, .f32⟩
  | 25 => ⟨S50000x64, .f32⟩
  | 26 => ⟨S_, .i32⟩
  | 27 => ⟨S50000, .i32⟩
  | 28 => ⟨S50000, .i1⟩
  | 29 => ⟨S50000x1, .i1⟩
  | 30 => ⟨S50000x64, .i1⟩
  | 31 => ⟨S50000x64, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x64, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x64, .f32⟩
  | 50 => ⟨S800000x128, .f32⟩
  | 51 => ⟨S1x128x32, .f32⟩
  | 52 => ⟨S128x32, .f32⟩
  | 53 => ⟨S800000x32, .f32⟩
  | 54 => ⟨S1x32, .f32⟩
  | 55 => ⟨S32, .f32⟩
  | 56 => ⟨S1x32, .f32⟩
  | 57 => ⟨S800000x32, .f32⟩
  | 58 => ⟨S800000x32, .f32⟩
  | 59 => ⟨S_, .f32⟩
  | 60 => ⟨S800000x32, .f32⟩
  | 61 => ⟨S800000x32, .f32⟩
  | 62 => ⟨S_, .i32⟩
  | 63 => ⟨S800000, .i32⟩
  | 64 => ⟨S800000, .i1⟩
  | 65 => ⟨S800000, .f32⟩
  | 66 => ⟨S800000x1, .f32⟩
  | 67 => ⟨S800000x32, .f32⟩
  | 68 => ⟨S800000x32, .f32⟩
  | 69 => ⟨S_, .f32⟩
  | 70 => ⟨S50000x32, .f32⟩
  | 71 => ⟨S800000x1, .i32⟩
  | 72 => ⟨S50000x32, .f32⟩
  | 73 => ⟨S_, .f32⟩
  | 74 => ⟨S50000, .f32⟩
  | 75 => ⟨S800000x1, .i32⟩
  | 76 => ⟨S50000, .f32⟩
  | 77 => ⟨S_, .f32⟩
  | 78 => ⟨S50000, .f32⟩
  | 79 => ⟨S50000, .f32⟩
  | 80 => ⟨S50000x1, .f32⟩
  | 81 => ⟨S50000x32, .f32⟩
  | 82 => ⟨S50000x32, .f32⟩
  | 83 => ⟨S1x128x32, .f32⟩
  | 84 => ⟨S128x32, .f32⟩
  | 85 => ⟨S800000x32, .f32⟩
  | 86 => ⟨S1x32, .f32⟩
  | 87 => ⟨S32, .f32⟩
  | 88 => ⟨S1x32, .f32⟩
  | 89 => ⟨S800000x32, .f32⟩
  | 90 => ⟨S800000x32, .f32⟩
  | 91 => ⟨S_, .f32⟩
  | 92 => ⟨S800000x32, .f32⟩
  | 93 => ⟨S800000x32, .f32⟩
  | 94 => ⟨S_, .i32⟩
  | 95 => ⟨S800000, .i32⟩
  | 96 => ⟨S800000, .i1⟩
  | 97 => ⟨S800000, .f32⟩
  | 98 => ⟨S800000x1, .f32⟩
  | 99 => ⟨S800000x32, .f32⟩
  | 100 => ⟨S800000x32, .f32⟩
  | 101 => ⟨S_, .f32⟩
  | 102 => ⟨S50000x32, .f32⟩
  | 103 => ⟨S800000x1, .i32⟩
  | 104 => ⟨S50000x32, .f32⟩
  | 105 => ⟨S_, .f32⟩
  | 106 => ⟨S50000, .f32⟩
  | 107 => ⟨S800000x1, .i32⟩
  | 108 => ⟨S50000, .f32⟩
  | 109 => ⟨S_, .f32⟩
  | 110 => ⟨S50000, .f32⟩
  | 111 => ⟨S50000, .f32⟩
  | 112 => ⟨S50000x1, .f32⟩
  | 113 => ⟨S50000x32, .f32⟩
  | 114 => ⟨S50000x32, .f32⟩
  | 115 => ⟨S1x128x32, .f32⟩
  | 116 => ⟨S128x32, .f32⟩
  | 117 => ⟨S800000x32, .f32⟩
  | 118 => ⟨S1x32, .f32⟩
  | 119 => ⟨S32, .f32⟩
  | 120 => ⟨S1x32, .f32⟩
  | 121 => ⟨S800000x32, .f32⟩
  | 122 => ⟨S800000x32, .f32⟩
  | 123 => ⟨S_, .f32⟩
  | 124 => ⟨S800000x32, .f32⟩
  | 125 => ⟨S800000x32, .f32⟩
  | 126 => ⟨S_, .i32⟩
  | 127 => ⟨S800000, .i32⟩
  | _ => ⟨S50000x128, .f32⟩

abbrev hbmTy0_2 (i : Nat) : BufTy := match i % 128 with
  | 0 => ⟨S800000, .i1⟩
  | 1 => ⟨S800000, .f32⟩
  | 2 => ⟨S800000x1, .f32⟩
  | 3 => ⟨S800000x32, .f32⟩
  | 4 => ⟨S800000x32, .f32⟩
  | 5 => ⟨S_, .f32⟩
  | 6 => ⟨S50000x32, .f32⟩
  | 7 => ⟨S800000x1, .i32⟩
  | 8 => ⟨S50000x32, .f32⟩
  | 9 => ⟨S_, .f32⟩
  | 10 => ⟨S50000, .f32⟩
  | 11 => ⟨S800000x1, .i32⟩
  | 12 => ⟨S50000, .f32⟩
  | 13 => ⟨S_, .f32⟩
  | 14 => ⟨S50000, .f32⟩
  | 15 => ⟨S50000, .f32⟩
  | 16 => ⟨S50000x1, .f32⟩
  | 17 => ⟨S50000x32, .f32⟩
  | 18 => ⟨S50000x32, .f32⟩
  | 19 => ⟨S50000x96, .f32⟩
  | 20 => ⟨S1x96x128, .f32⟩
  | 21 => ⟨S96x128, .f32⟩
  | 22 => ⟨S50000x128, .f32⟩
  | 23 => ⟨S1x128, .f32⟩
  | 24 => ⟨S128, .f32⟩
  | 25 => ⟨S1x128, .f32⟩
  | 26 => ⟨S50000x128, .f32⟩
  | 27 => ⟨S50000x128, .f32⟩
  | 28 => ⟨S_, .f32⟩
  | 29 => ⟨S50000x128, .f32⟩
  | 30 => ⟨S50000x128, .f32⟩
  | 31 => ⟨S1x96x128, .f32⟩
  | 32 => ⟨S96x128, .f32⟩
  | 33 => ⟨S50000x128, .f32⟩
  | 34 => ⟨S1x128, .f32⟩
  | 35 => ⟨S128, .f32⟩
  | 36 => ⟨S1x128, .f32⟩
  | 37 => ⟨S50000x128, .f32⟩
  | 38 => ⟨S50000x128, .f32⟩
  | 39 => ⟨S_, .f32⟩
  | 40 => ⟨S50000x128, .f32⟩
  | 41 => ⟨S50000x128, .f32⟩
  | 42 => ⟨S_, .i32⟩
  | 43 => ⟨S50000, .i32⟩
  | 44 => ⟨S50000, .i1⟩
  | 45 => ⟨S50000x1, .i1⟩
  | 46 => ⟨S50000x128, .i1⟩
  | 47 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call0_cst : Ref sig .tc := ⟨.hbm, 43, rfl⟩
abbrev main_call0_v0 : Ref sig .tc := ⟨.hbm, 44, rfl⟩
abbrev main_v27 : Ref sig .tc := ⟨.hbm, 45, rfl⟩
abbrev main_c_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_4 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_5 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call1_cst : Ref sig .tc := ⟨.hbm, 75, rfl⟩
abbrev main_call1_v0 : Ref sig .tc := ⟨.hbm, 76, rfl⟩
abbrev main_v53 : Ref sig .tc := ⟨.hbm, 77, rfl⟩
abbrev main_c_6 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_7 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_8 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_9 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_call2_cst : Ref sig .tc := ⟨.hbm, 107, rfl⟩
abbrev main_call2_v0 : Ref sig .tc := ⟨.hbm, 108, rfl⟩
abbrev main_v79 : Ref sig .tc := ⟨.hbm, 109, rfl⟩
abbrev main_c_10 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_11 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_12 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_13 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_call3_cst : Ref sig .tc := ⟨.hbm, 140, rfl⟩
abbrev main_call3_v0 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_call4_cst : Ref sig .tc := ⟨.hbm, 151, rfl⟩
abbrev main_call4_v0 : Ref sig .tc := ⟨.hbm, 152, rfl⟩
abbrev main_v115 : Ref sig .tc := ⟨.hbm, 153, rfl⟩
abbrev main_c_14 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_call5_v0 : Ref sig .tc := ⟨.hbm, 158, rfl⟩
abbrev main_v119 : Ref sig .tc := ⟨.hbm, 159, rfl⟩
abbrev main_c_15 : Ref sig .tc := ⟨.hbm, 160, rfl⟩
abbrev main_v120 : Ref sig .tc := ⟨.hbm, 161, rfl⟩
abbrev main_v121 : Ref sig .tc := ⟨.hbm, 162, rfl⟩
abbrev main_c_16 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_c_17 : Ref sig .tc := ⟨.hbm, 169, rfl⟩
abbrev main_v127 : Ref sig .tc := ⟨.hbm, 170, rfl⟩
abbrev main_v128 : Ref sig .tc := ⟨.hbm, 171, rfl⟩
abbrev main_c_18 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_call6_cst : Ref sig .tc := ⟨.hbm, 187, rfl⟩
abbrev main_call6_v0 : Ref sig .tc := ⟨.hbm, 188, rfl⟩
abbrev main_v143 : Ref sig .tc := ⟨.hbm, 189, rfl⟩
abbrev main_c_19 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_cst_20 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_cst_21 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_cst_22 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_call7_cst : Ref sig .tc := ⟨.hbm, 219, rfl⟩
abbrev main_call7_v0 : Ref sig .tc := ⟨.hbm, 220, rfl⟩
abbrev main_v169 : Ref sig .tc := ⟨.hbm, 221, rfl⟩
abbrev main_c_23 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_cst_24 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_cst_25 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_cst_26 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_call8_cst : Ref sig .tc := ⟨.hbm, 251, rfl⟩
abbrev main_call8_v0 : Ref sig .tc := ⟨.hbm, 252, rfl⟩
abbrev main_v195 : Ref sig .tc := ⟨.hbm, 253, rfl⟩
abbrev main_c_27 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_cst_28 : Ref sig .tc := ⟨.hbm, 261, rfl⟩
abbrev main_v202 : Ref sig .tc := ⟨.hbm, 262, rfl⟩
abbrev main_v203 : Ref sig .tc := ⟨.hbm, 263, rfl⟩
abbrev main_v204 : Ref sig .tc := ⟨.hbm, 264, rfl⟩
abbrev main_cst_29 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_cst_30 : Ref sig .tc := ⟨.hbm, 269, rfl⟩
abbrev main_v208 : Ref sig .tc := ⟨.hbm, 270, rfl⟩
abbrev main_v209 : Ref sig .tc := ⟨.hbm, 271, rfl⟩
abbrev main_v210 : Ref sig .tc := ⟨.hbm, 272, rfl⟩
abbrev main_v211 : Ref sig .tc := ⟨.hbm, 273, rfl⟩
abbrev main_v212 : Ref sig .tc := ⟨.hbm, 274, rfl⟩
abbrev main_v213 : Ref sig .tc := ⟨.hbm, 275, rfl⟩
abbrev main_v214 : Ref sig .tc := ⟨.hbm, 276, rfl⟩
abbrev main_v215 : Ref sig .tc := ⟨.hbm, 277, rfl⟩
abbrev main_v216 : Ref sig .tc := ⟨.hbm, 278, rfl⟩
abbrev main_v217 : Ref sig .tc := ⟨.hbm, 279, rfl⟩
abbrev main_v218 : Ref sig .tc := ⟨.hbm, 280, rfl⟩
abbrev main_v219 : Ref sig .tc := ⟨.hbm, 281, rfl⟩
abbrev main_v220 : Ref sig .tc := ⟨.hbm, 282, rfl⟩
abbrev main_v221 : Ref sig .tc := ⟨.hbm, 283, rfl⟩
abbrev main_call9_cst : Ref sig .tc := ⟨.hbm, 284, rfl⟩
abbrev main_call9_v0 : Ref sig .tc := ⟨.hbm, 285, rfl⟩
abbrev main_v222 : Ref sig .tc := ⟨.hbm, 286, rfl⟩
abbrev main_v223 : Ref sig .tc := ⟨.hbm, 287, rfl⟩
abbrev main_v224 : Ref sig .tc := ⟨.hbm, 288, rfl⟩
abbrev main_v225 : Ref sig .tc := ⟨.hbm, 289, rfl⟩
abbrev main_v226 : Ref sig .tc := ⟨.hbm, 290, rfl⟩
abbrev main_v227 : Ref sig .tc := ⟨.hbm, 291, rfl⟩
abbrev main_v228 : Ref sig .tc := ⟨.hbm, 292, rfl⟩
abbrev main_v229 : Ref sig .tc := ⟨.hbm, 293, rfl⟩
abbrev main_v230 : Ref sig .tc := ⟨.hbm, 294, rfl⟩
abbrev main_call10_cst : Ref sig .tc := ⟨.hbm, 295, rfl⟩
abbrev main_call10_v0 : Ref sig .tc := ⟨.hbm, 296, rfl⟩
abbrev main_v231 : Ref sig .tc := ⟨.hbm, 297, rfl⟩
abbrev main_c_31 : Ref sig .tc := ⟨.hbm, 298, rfl⟩
abbrev main_v232 : Ref sig .tc := ⟨.hbm, 299, rfl⟩
abbrev main_v233 : Ref sig .tc := ⟨.hbm, 300, rfl⟩
abbrev main_v234 : Ref sig .tc := ⟨.hbm, 301, rfl⟩
abbrev main_call11_v0 : Ref sig .tc := ⟨.hbm, 302, rfl⟩
abbrev main_v235 : Ref sig .tc := ⟨.hbm, 303, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  slices_S3x256x32_S1x256x32_0_0_0 : S3x256x32.Slices ![0, 0, 0] S1x256x32
  shapeCasts_S1x256x32_S256x32 : S1x256x32.ShapeCasts S256x32
  slices_S3x32_S1x32_0_0 : S3x32.Slices ![0, 0] S1x32
  shapeCasts_S1x32_S32 : S1x32.ShapeCasts S32
  bcast_S32_S1x32_1 : S32.BroadcastsInDim S1x32 (![1] : Fin 1 → Fin S1x32.rank)
  bcast_S1x32_S800000x32_0_1 : S1x32.BroadcastsInDim S800000x32 (![0, 1] : Fin 2 → Fin S800000x32.rank)
  bcast_S_S800000x32 : S_.BroadcastsInDim S800000x32 (![] : Fin 0 → Fin S800000x32.rank)
  bcast_S800000x1_S800000x32_0_1 : S800000x1.BroadcastsInDim S800000x32 (![0, 1] : Fin 2 → Fin S800000x32.rank)
  bcast_S_S50000x32 : S_.BroadcastsInDim S50000x32 (![] : Fin 0 → Fin S50000x32.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x32_0_1 : S50000x1.BroadcastsInDim S50000x32 (![0, 1] : Fin 2 → Fin S50000x32.rank)
  slices_S3x256x32_S1x256x32_1_0_0 : S3x256x32.Slices ![1, 0, 0] S1x256x32
  slices_S3x32_S1x32_1_0 : S3x32.Slices ![1, 0] S1x32
  slices_S3x256x32_S1x256x32_2_0_0 : S3x256x32.Slices ![2, 0, 0] S1x256x32
  slices_S3x32_S1x32_2_0 : S3x32.Slices ![2, 0] S1x32
  concatenates_S50000x32_S50000x32_S50000x32_S50000x96_d1 : Shape.Concatenates [S50000x32, S50000x32, S50000x32] S50000x96 1
  slices_S2x96x64_S1x96x64_0_0_0 : S2x96x64.Slices ![0, 0, 0] S1x96x64
  shapeCasts_S1x96x64_S96x64 : S1x96x64.ShapeCasts S96x64
  slices_S2x64_S1x64_0_0 : S2x64.Slices ![0, 0] S1x64
  shapeCasts_S1x64_S64 : S1x64.ShapeCasts S64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  slices_S2x96x64_S1x96x64_1_0_0 : S2x96x64.Slices ![1, 0, 0] S1x96x64
  slices_S2x64_S1x64_1_0 : S2x64.Slices ![1, 0] S1x64
  bcast_S50000x1_S50000x64_0_1 : S50000x1.BroadcastsInDim S50000x64 (![0, 1] : Fin 2 → Fin S50000x64.rank)
  concatenates_S800000x64_S800000x64_S800000x128_d1 : Shape.Concatenates [S800000x64, S800000x64] S800000x128 1
  slices_S3x128x32_S1x128x32_0_0_0 : S3x128x32.Slices ![0, 0, 0] S1x128x32
  shapeCasts_S1x128x32_S128x32 : S1x128x32.ShapeCasts S128x32
  slices_S3x128x32_S1x128x32_1_0_0 : S3x128x32.Slices ![1, 0, 0] S1x128x32
  slices_S3x128x32_S1x128x32_2_0_0 : S3x128x32.Slices ![2, 0, 0] S1x128x32
  slices_S2x96x128_S1x96x128_0_0_0 : S2x96x128.Slices ![0, 0, 0] S1x96x128
  shapeCasts_S1x96x128_S96x128 : S1x96x128.ShapeCasts S96x128
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S2x96x128_S1x96x128_1_0_0 : S2x96x128.Slices ![1, 0, 0] S1x96x128
  slices_S2x128_S1x128_1_0 : S2x128.Slices ![1, 0] S1x128
  bcast_S50000x1_S50000x128_0_1 : S50000x1.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x256_S256x32_S800000x32_1_0_0_1_n_n_wf : DotDims.WF S800000x256 S256x32 S800000x32 [1] [0] [0] [1] [] []
  scatter_S50000x32_S800000x1_S800000x32_1_0_0_1_wf : ScatterDims.WF S50000x32 S800000x1 S800000x32 [1] [0] [0] 1
  scatter_S50000_S800000x1_S800000_n_0_0_1_wf : ScatterDims.WF S50000 S800000x1 S800000 [] [0] [0] 1
  dot_S50000x96_S96x64_S50000x64_1_0_0_1_n_n_wf : DotDims.WF S50000x96 S96x64 S50000x64 [1] [0] [0] [1] [] []
  gather_S50000x64_S800000x1_S800000x64_1_0_n_n_0_1_164_wf : GatherDims.WF S50000x64 S800000x1 S800000x64 [1] [0] [] [0] [] 1 ![1, 64]
  dot_S800000x128_S128x32_S800000x32_1_0_0_1_n_n_wf : DotDims.WF S800000x128 S128x32 S800000x32 [1] [0] [0] [1] [] []
  dot_S50000x96_S96x128_S50000x128_1_0_0_1_n_n_wf : DotDims.WF S50000x96 S96x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x32_S800000x32_1_0_0_1_n_n : DotDims S800000x256 S256x32 S800000x32 where
  lhsContracting := [1]
  rhsContracting := [0]
  lhsNonContracting := [0]
  rhsNonContracting := [1]
  lhsBatch := []
  rhsBatch := []
  wf := dot_S800000x256_S256x32_S800000x32_1_0_0_1_n_n_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x96_S96x64_S50000x64_1_0_0_1_n_n : DotDims S50000x96 S96x64 S50000x64 where
  lhsContracting := [1]
  rhsContracting := [0]
  lhsNonContracting := [0]
  rhsNonContracting := [1]
  lhsBatch := []
  rhsBatch := []
  wf := dot_S50000x96_S96x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x32_S800000x32_1_0_0_1_n_n : DotDims S800000x128 S128x32 S800000x32 where
  lhsContracting := [1]
  rhsContracting := [0]
  lhsNonContracting := [0]
  rhsNonContracting := [1]
  lhsBatch := []
  rhsBatch := []
  wf := dot_S800000x128_S128x32_S800000x32_1_0_0_1_n_n_wf
def dot_S50000x96_S96x128_S50000x128_1_0_0_1_n_n : DotDims S50000x96 S96x128 S50000x128 where
  lhsContracting := [1]
  rhsContracting := [0]
  lhsNonContracting := [0]
  rhsNonContracting := [1]
  lhsBatch := []
  rhsBatch := []
  wf := dot_S50000x96_S96x128_S50000x128_1_0_0_1_n_n_wf

class Facts : Prop extends Facts₀ where

variable [Facts]
-- ==== Proof.RefRunOps10.lean ====
import proofs.«420892_j79345225826944_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops10 : List (HloOp τ sig (Elt F)) :=
  [ nary ![main_v160, main_v186, main_v212] main_v213 (fun u => concatenate S50000x96 1 [⟨S50000x32, u 0⟩, ⟨S50000x32, u 1⟩, ⟨S50000x32, u 2⟩] concatenates_S50000x32_S50000x32_S50000x32_S50000x96_d1),
    unary main_arg10 main_v214 ((extractStridedSlice S1x96x128 ![0, 0, 0] · slices_S2x96x128_S1x96x128_0_0_0) : (⟨S2x96x128, .f32⟩ : BufTy).Contents (Elt F) → (⟨S1x96x128, .f32⟩ : BufTy).Contents (Elt F)),
    reshape main_v214 main_v215 rfl shapeCasts_S1x96x128_S96x128,
    binary main_v213 main_v215 main_v216 ((fun l r => Host.dotGeneral dot_S50000x96_S96x128_S50000x128_1_0_0_1_n_n none l r) : (⟨S50000x96, .f32⟩ : BufTy).Contents (Elt F) → (⟨S96x128, .f32⟩ : BufTy).Contents (Elt F) → (⟨S50000x128, .f32⟩ : BufTy).Contents (Elt F)),
    unary main_arg11 main_v217 ((extractStridedSlice S1x128 ![0, 0] · slices_S2x128_S1x128_0_0) : (⟨S2x128, .f32⟩ : BufTy).Contents (Elt F) → (⟨S1x128, .f32⟩ : BufTy).Contents (Elt F)),
    reshape main_v217 main_v218 rfl shapeCasts_S1x128_S128,
    unary main_v218 main_v219 (broadcastInDim S1x128 ![1] bcast_S128_S1x128_1 : (⟨S128, .f32⟩ : BufTy).Contents (Elt F) → (⟨S1x128, .f32⟩ : BufTy).Contents (Elt F)),
    unary main_v219 main_v220 (broadcastInDim S50000x128 ![0, 1] bcast_S1x128_S50000x128_0_1 : (⟨S1x128, .f32⟩ : BufTy).Contents (Elt F) → (⟨S50000x128, .f32⟩ : BufTy).Contents (Elt F)),
    binary main_v216 main_v220 main_v221 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S50000x128, .f32⟩) main_call9_v0) (broadcastInDim S50000x128 ![] bcast_S_S50000x128),
    TRef.binary (TRef.of (T := ⟨S50000x128, .f32⟩) main_v221) (TRef.of (T := ⟨S50000x128, .f32⟩) main_call9_v0) (TRef.of (T := ⟨S50000x128, .f32⟩) main_v222) maximumf,
    unary main_arg10 main_v223 ((extractStridedSlice S1x96x128 ![1, 0, 0] · slices_S2x96x128_S1x96x128_1_0_0) : (⟨S2x96x128, .f32⟩ : BufTy).Contents (Elt F) → (⟨S1x96x128, .f32⟩ : BufTy).Contents (Elt F)),
    reshape main_v223 main_v224 rfl shapeCasts_S1x96x128_S96x128,
    binary main_v213 main_v224 main_v225 ((fun l r => Host.dotGeneral dot_S50000x96_S96x128_S50000x128_1_0_0_1_n_n none l r) : (⟨S50000x96, .f32⟩ : BufTy).Contents (Elt F) → (⟨S96x128, .f32⟩ : BufTy).Contents (Elt F) → (⟨S50000x128, .f32⟩ : BufTy).Contents (Elt F)),
    unary main_arg11 main_v226 ((extractStridedSlice S1x128 ![1, 0] · slices_S2x128_S1x128_1_0) : (⟨S2x128, .f32⟩ : BufTy).Contents (Elt F) → (⟨S1x128, .f32⟩ : BufTy).Contents (Elt F)),
    reshape main_v226 main_v227 rfl shapeCasts_S1x128_S128,
    unary main_v227 main_v228 (broadcastInDim S1x128 ![1] bcast_S128_S1x128_1 : (⟨S128, .f32⟩ : BufTy).Contents (Elt F) → (⟨S1x128, .f32⟩ : BufTy).Contents (Elt F)),
    unary main_v228 main_v229 (broadcastInDim S50000x128 ![0, 1] bcast_S1x128_S50000x128_0_1 : (⟨S1x128, .f32⟩ : BufTy).Contents (Elt F) → (⟨S50000x128, .f32⟩ : BufTy).Contents (Elt F)),
    binary main_v225 main_v229 main_v230 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S50000x128, .f32⟩) main_call10_v0) (broadcastInDim S50000x128 ![] bcast_S_S50000x128),
    TRef.binary (TRef.of (T := ⟨S50000x128, .f32⟩) main_v230) (TRef.of (T := ⟨S50000x128, .f32⟩) main_call10_v0) (TRef.of (T := ⟨S50000x128, .f32⟩) main_v231) maximumf,
    nullary main_c_31 (constantI S_ 32 0#32),
    unary main_c_31 main_v232 (broadcastInDim S50000 ![] bcast_S_S50000 : (⟨S_, .i32⟩ : BufTy).Contents (Elt F) → (⟨S50000, .i32⟩ : BufTy).Contents (Elt F)),
    binary main_arg3 main_v232 main_v233 (cmpi .eq : (⟨S50000, .i32⟩ : BufTy).Contents (Elt F) → (⟨S50000, .i32⟩ : BufTy).Contents (Elt F) → (⟨S50000, .i1⟩ : BufTy).Contents (Elt F)),
    unary main_v233 main_v234 (broadcastInDim S50000x1 ![0] bcast_S50000_S50000x1_0 : (⟨S50000, .i1⟩ : BufTy).Contents (Elt F) → (⟨S50000x1, .i1⟩ : BufTy).Contents (Elt F)),
    TRef.unary (TRef.of (T := ⟨S50000x1, .i1⟩) main_v234) (TRef.of (T := ⟨S50000x128, .i1⟩) main_call11_v0) (broadcastInDim S50000x128 ![0, 1] bcast_S50000x1_S50000x128_0_1),
    TRef.ternary (TRef.of (T := ⟨S50000x128, .i1⟩) main_call11_v0) (TRef.of (T := ⟨S50000x128, .f32⟩) main_v222) (TRef.of (T := ⟨S50000x128, .f32⟩) main_v231) (TRef.of (T := ⟨S50000x128, .f32⟩) main_v235) select ]

theorem ops10_sub : (ops10 : List (HloOp τ sig (Elt F))).Forall fun op => op.bufs ⊆ tcRefs τ sig :=
  ⟨nary_bufs_sub .., unary_bufs_sub .., reshape_bufs_sub .., binary_bufs_sub .., unary_bufs_sub .., reshape_bufs_sub ..,
    unary_bufs_sub .., unary_bufs_sub .., binary_bufs_sub .., nullary_bufs_sub .., unary_bufs_sub .., binary_bufs_sub ..,
    unary_bufs_sub .., reshape_bufs_sub .., binary_bufs_sub .., unary_bufs_sub .., reshape_bufs_sub .., unary_bufs_sub ..,
    unary_bufs_sub .., binary_bufs_sub .., nullary_bufs_sub .., unary_bufs_sub .., binary_bufs_sub .., nullary_bufs_sub ..,
    unary_bufs_sub .., binary_bufs_sub .., unary_bufs_sub .., unary_bufs_sub .., ternary_bufs_sub ..⟩

theorem ops10_fresh : (ops10 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl⟩

abbrev ops10_W : List (Ref sig .tc) :=
  [main_v213, main_v214, main_v215, main_v216, main_v217, main_v218, main_v219, main_v220,
   main_v221, main_call9_cst, main_call9_v0, main_v222, main_v223, main_v224, main_v225, main_v226,
   main_v227, main_v228, main_v229, main_v230, main_call10_cst, main_call10_v0, main_v231, main_c_31,
   main_v232, main_v233, main_v234, main_call11_v0, main_v235]

theorem ops10_writes : (ops10 : List (HloOp τ sig (Elt F))).Forall fun op =>
    op.writes ⊆ (ops10_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, nary_writes, Finset.singleton_subset_iff, List.mem_toFinset]; exact List.mem_map_of_mem (by decide))

end Cert.ReferenceIdeal.RefRun

end
-- ==== Proof.RefRunOps9.lean ====
import proofs.«420892_j79345225826944_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops9 : List (HloOp τ sig (Elt F)) :=
  [ nullary main_cst_30 (constant S_ .f32 0x3F800000#32),
    unary main_cst_30 main_v208 (broadcastInDim S50000 ![] bcast_S_S50000 : (⟨S_, .f32⟩ : BufTy).Contents (Elt F) → (⟨S50000, .f32⟩ : BufTy).Contents (Elt F)),
    binary main_v207 main_v208 main_v209 (maximumf : (⟨S50000, .f32⟩ : BufTy).Contents (Elt F) → (⟨S50000, .f32⟩ : BufTy).Contents (Elt F) → (⟨S50000, .f32⟩ : BufTy).Contents (Elt F)),
    unary main_v209 main_v210 (broadcastInDim S50000x1 ![0] bcast_S50000_S50000x1_0 : (⟨S50000, .f32⟩ : BufTy).Contents (Elt F) → (⟨S50000x1, .f32⟩ : BufTy).Contents (Elt F)),
    unary main_v210 main_v211 (broadcastInDim S50000x32 ![0, 1] bcast_S50000x1_S50000x32_0_1 : (⟨S50000x1, .f32⟩ : BufTy).Contents (Elt F) → (⟨S50000x32, .f32⟩ : BufTy).Contents (Elt F)),
    binary main_v204 main_v211 main_v212 (Host.divf : (⟨S50000x32, .f32⟩ : BufTy).Contents (Elt F) → (⟨S50000x32, .f32⟩ : BufTy).Contents (Elt F) → (⟨S50000x32, .f32⟩ : BufTy).Contents (Elt F)) ]

theorem ops9_sub : (ops9 : List (HloOp τ sig (Elt F))).Forall fun op => op.bufs ⊆ tcRefs τ sig :=
  ⟨nullary_bufs_sub .., unary_bufs_sub .., binary_bufs_sub .., unary_bufs_sub .., unary_bufs_sub .., binary_bufs_sub ..⟩

theorem ops9_fresh : (ops9 : List (HloOp τ sig (Elt F))).Forall fun op => op.fresh = ∅ :=
  ⟨rfl, rfl, rfl, rfl, rfl, rfl⟩

abbrev ops9_W : List (Ref sig .tc) :=
  [main_cst_30, main_v208, main_v209, main_v210, main_v211, main_v212]

theorem ops9_writes : (ops9 : List (HloOp τ sig (Elt F))).Forall fun op =>
    op.writes ⊆ (ops9_W.map (Proc.devRef (τ := τ) .tc)).toFinset := by
  simp only [List.Forall]
  refine ⟨?_, ?_, ?_, ?_, ?_, ?_⟩ <;>
    (simp only [nullary_writes, unary_writes, binary_writes, ternary_writes, quaternary_writes, reshape_writes, nary_writes, Finset.singleton_subset_iff, List.mem_toFinset]; exact List.mem_map_of_mem (by decide))

end Cert.ReferenceIdeal.RefRun

end
-- ==== Proof.RefRunOps8.lean ====
import proofs.«420892_j79345225826944_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops8 : List (HloOp τ sig (Elt F)) :=
  [ unary main_arg8 main_v187 ((extractStridedSlice S1x128x32 ![2, 0, 0] · slices_S3x128x32_S1x128x32_2_0_0) : (⟨S3x128x32, .f32⟩ : BufTy).Contents (Elt F) → (⟨S1x128x32, .f32⟩ : BufTy).Contents (Elt F)),
    reshape main_v187 main_v188 rfl shapeCasts_S1x128x32_S128x32,
    binary main_v134 main_v188 main_v189 ((fun l r => Host.dotGeneral dot_S800000x128_S128x32_S800000x32_1_0_0_1_n_n none l r) : (⟨S800000x128, .f32⟩ : BufTy).Contents (Elt F) → (⟨S128x32, .f32⟩ : BufTy).Contents (Elt F) → (⟨S800000x32, .f32⟩ : BufTy).Contents (Elt F)),
    unary main_arg9 main_v190 ((extractStridedSlice S1x32 ![2, 0] · slices_S3x32_S1x32_2_0) : (⟨S3x32, .f32⟩ : BufTy).Contents (Elt F) → (⟨S1x32, .f32⟩ : BufTy).Contents (Elt F)),
    reshape main_v190 main_v191 rfl shapeCasts_S1x32_S32,
    unary main_v191 main_v192 (broadcastInDim S1x32 ![1] bcast_S32_S1x32_1 : (⟨S32, .f32⟩ : BufTy).Contents (Elt F) → (⟨S1x32, .f32⟩ : BufTy).Contents (Elt F)),
    unary main_v192 main_v193 (broadcastInDim S800000x32 ![0, 1] bcast_S1x32_S800000x32_0_1 : (⟨S1x32, .f32⟩ : BufTy).Contents (Elt F) → (⟨S800000x32, .f32⟩ : BufTy).Contents (Elt F)),
    binary main_v189 main_v193 main_v194 (addf : (⟨S800000x32, .f32⟩ : BufTy).Contents (Elt F) → (⟨S800000x32, .f32⟩ : BufTy).Contents (Elt F) → (⟨S800000x32, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S800000x32, .f32⟩) main_call8_v0) (broadcastInDim S800000x32 ![] bcast_S_S800000x32),
    TRef.binary (TRef.of (T := ⟨S800000x32, .f32⟩) main_v194) (TRef.of (T := ⟨S800000x32, .f32⟩) main_call8_v0) (TRef.of (T := ⟨S800000x32, .f32⟩) main_v195) maximumf,
    nullary main_c_27 (constantI S_ 32 2#32),
    unary main_c_27 main_v196 (broadcastInDim S800000 ![] bcast_S_S800000 : (⟨S_, .i32⟩ : BufTy).Contents (Elt F) → (⟨S800000, .i32⟩ : BufTy).Contents (Elt F)),
    binary main_arg2 main_v196 main_v197 (cmpi .eq : (⟨S800000, .i32⟩ : BufTy).Contents (Elt F) → (⟨S800000, .i32⟩ : BufTy).Contents (Elt F) → (⟨S800000, .i1⟩ : BufTy).Contents (Elt F)),
    unary main_v197 main_v198 (uitofp .f32 : (⟨S800000, .i1⟩ : BufTy).Contents (Elt F) → (⟨S800000, .f32⟩ : BufTy).Contents (Elt F)),
    unary main_v198 main_v199 (broadcastInDim S800000x1 ![0] bcast_S800000_S800000x1_0 : (⟨S800000, .f32⟩ : BufTy).Contents (Elt F) → (⟨S800000x1, .f32⟩ : BufTy).Contents (Elt F)),
    unary main_v199 main_v200 (broadcastInDim S800000x32 ![0, 1] bcast_S800000x1_S800000x32_0_1 : (⟨S800000x1, .f32⟩ : BufTy).Contents (Elt F) → (⟨S800000x32, .f32⟩ : BufTy).Contents (Elt F)),
    binary main_v195 main_v200 main_v201 (mulf : (⟨S800000x32, .f32⟩ : BufTy).Contents (Elt F) → (⟨S800000x32, .f32⟩ : BufTy).Contents (Elt F) → (⟨S800000x32, .f32⟩ : BufTy).Contents (Elt F)),
    nullary main_cst_28 (constant S_ .f32 0x00000000#32),
    unary main_cst_28 main_v202 (broadcastInDim S50000x32 ![] bcast_S_S50000x32 : (⟨S_, .f32⟩ : BufTy).Contents (Elt F) → (⟨S50000x32, .f32⟩ : BufTy).Contents (Elt F)),
    unary main_v3 main_v203 (broadcastInDim S800000x1 ![0] bcast_S800000_S800000x1_0 : (⟨S800000, .i32⟩ : BufTy).Contents (Elt F) → (⟨S800000x1, .i32⟩ : BufTy).Contents (Elt F)),
    ternary main_v202 main_v203 main_v201 main_v204 ((fun x i u => Host.scatterAdd scatter_S50000x32_S800000x1_S800000x32_1_0_0_1 x i u) : (⟨S50000x32, .f32⟩ : BufTy).Contents (Elt F) → (⟨S800000x1, .i32⟩ : BufTy).Contents (Elt F) → (⟨S800000x32, .f32⟩ : BufTy).Contents (Elt F) → (⟨S50000x32, .f32⟩ : BufTy).Contents (Elt F)),
    nullary main_cst_29 (constant S_ .f32 0x00000000#32),
    unary main_cst_29 main_v205 (broadcastInDim S50000 ![] bcast_S_S50000 : (⟨S_, .f32⟩ : BufTy).Contents (Elt F) → (⟨S50000, .f32⟩ : BufTy).Contents (Elt F)),
    unary main_v3 main_v206 (broadcastInDim S800000x1 ![0] bcast_S800000_S800000x1_0 : (⟨S800000, .i32⟩ : BufTy).Contents (Elt F) → (⟨S800000x1, .i32⟩ : BufTy).Contents (Elt F)),
    ternary main_v205 main_v206 main_v198 main_v207 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)) ]

theorem ops8_sub : (ops8 : List (HloOp τ sig (Elt F))).Forall fun op => op.bufs ⊆ tcRefs τ sig :=
  ⟨unary_bufs_sub .., reshape_bufs_sub .., binary_bufs_sub .., unary_bufs_sub .., reshape_bufs_sub .., unary_bufs_sub ..,
    unary_bufs_sub .., binary_bufs_sub .., nullary_bufs_sub .., unary_bufs_sub .., binary_bufs_sub .., nullary_bufs_sub ..,
    unary_bufs_sub .., binary_bufs_sub .., unary_bufs_sub .., unary_bufs_sub .., unary_bufs_sub .., binary_bufs_sub ..,
    nullary_bufs_sub .., unary_bufs_sub .., unary_bufs_sub .., ternary_bufs_sub .., nullary_bufs_sub .., unary_bufs_sub ..,
    unary_bufs_sub .., ternary_bufs_sub ..⟩

theorem ops8_fresh : (ops8 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl⟩

abbrev ops8_W : List (Ref sig .tc) :=
  [main_v187, main_v188, main_v189, main_v190, main_v191, main_v192, main_v193, main_v194,
   main_call8_cst, main_call8_v0, main_v195, main_c_27, main_v196, main_v197, main_v198, main_v199,
   main_v200, main_v201, main_cst_28, main_v202, main_v203, main_v204, main_cst_29, main_v205,
   main_v206, main_v207]

theorem ops8_writes : (ops8 : List (HloOp τ sig (Elt F))).Forall fun op =>
    op.writes ⊆ (ops8_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, nary_writes, Finset.singleton_subset_iff, List.mem_toFinset]; exact List.mem_map_of_mem (by decide))

end Cert.ReferenceIdeal.RefRun

end
-- ==== Proof.RefRunOps7.lean ====
import proofs.«420892_j79345225826944_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops7 : List (HloOp τ sig (Elt F)) :=
  [ nullary main_cst_22 (constant S_ .f32 0x3F800000#32),
    unary main_cst_22 main_v156 (broadcastInDim S50000 ![] bcast_S_S50000 : (⟨S_, .f32⟩ : BufTy).Contents (Elt F) → (⟨S50000, .f32⟩ : BufTy).Contents (Elt F)),
    binary main_v155 main_v156 main_v157 (maximumf : (⟨S50000, .f32⟩ : BufTy).Contents (Elt F) → (⟨S50000, .f32⟩ : BufTy).Contents (Elt F) → (⟨S50000, .f32⟩ : BufTy).Contents (Elt F)),
    unary main_v157 main_v158 (broadcastInDim S50000x1 ![0] bcast_S50000_S50000x1_0 : (⟨S50000, .f32⟩ : BufTy).Contents (Elt F) → (⟨S50000x1, .f32⟩ : BufTy).Contents (Elt F)),
    unary main_v158 main_v159 (broadcastInDim S50000x32 ![0, 1] bcast_S50000x1_S50000x32_0_1 : (⟨S50000x1, .f32⟩ : BufTy).Contents (Elt F) → (⟨S50000x32, .f32⟩ : BufTy).Contents (Elt F)),
    binary main_v152 main_v159 main_v160 (Host.divf : (⟨S50000x32, .f32⟩ : BufTy).Contents (Elt F) → (⟨S50000x32, .f32⟩ : BufTy).Contents (Elt F) → (⟨S50000x32, .f32⟩ : BufTy).Contents (Elt F)),
    unary main_arg8 main_v161 ((extractStridedSlice S1x128x32 ![1, 0, 0] · slices_S3x128x32_S1x128x32_1_0_0) : (⟨S3x128x32, .f32⟩ : BufTy).Contents (Elt F) → (⟨S1x128x32, .f32⟩ : BufTy).Contents (Elt F)),
    reshape main_v161 main_v162 rfl shapeCasts_S1x128x32_S128x32,
    binary main_v134 main_v162 main_v163 ((fun l r => Host.dotGeneral dot_S800000x128_S128x32_S800000x32_1_0_0_1_n_n none l r) : (⟨S800000x128, .f32⟩ : BufTy).Contents (Elt F) → (⟨S128x32, .f32⟩ : BufTy).Contents (Elt F) → (⟨S800000x32, .f32⟩ : BufTy).Contents (Elt F)),
    unary main_arg9 main_v164 ((extractStridedSlice S1x32 ![1, 0] · slices_S3x32_S1x32_1_0) : (⟨S3x32, .f32⟩ : BufTy).Contents (Elt F) → (⟨S1x32, .f32⟩ : BufTy).Contents (Elt F)),
    reshape main_v164 main_v165 rfl shapeCasts_S1x32_S32,
    unary main_v165 main_v166 (broadcastInDim S1x32 ![1] bcast_S32_S1x32_1 : (⟨S32, .f32⟩ : BufTy).Contents (Elt F) → (⟨S1x32, .f32⟩ : BufTy).Contents (Elt F)),
    unary main_v166 main_v167 (broadcastInDim S800000x32 ![0, 1] bcast_S1x32_S800000x32_0_1 : (⟨S1x32, .f32⟩ : BufTy).Contents (Elt F) → (⟨S800000x32, .f32⟩ : BufTy).Contents (Elt F)),
    binary main_v163 main_v167 main_v168 (addf : (⟨S800000x32, .f32⟩ : BufTy).Contents (Elt F) → (⟨S800000x32, .f32⟩ : BufTy).Contents (Elt F) → (⟨S800000x32, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S800000x32, .f32⟩) main_call7_v0) (broadcastInDim S800000x32 ![] bcast_S_S800000x32),
    TRef.binary (TRef.of (T := ⟨S800000x32, .f32⟩) main_v168) (TRef.of (T := ⟨S800000x32, .f32⟩) main_call7_v0) (TRef.of (T := ⟨S800000x32, .f32⟩) main_v169) maximumf,
    nullary main_c_23 (constantI S_ 32 1#32),
    unary main_c_23 main_v170 (broadcastInDim S800000 ![] bcast_S_S800000 : (⟨S_, .i32⟩ : BufTy).Contents (Elt F) → (⟨S800000, .i32⟩ : BufTy).Contents (Elt F)),
    binary main_arg2 main_v170 main_v171 (cmpi .eq : (⟨S800000, .i32⟩ : BufTy).Contents (Elt F) → (⟨S800000, .i32⟩ : BufTy).Contents (Elt F) → (⟨S800000, .i1⟩ : BufTy).Contents (Elt F)),
    unary main_v171 main_v172 (uitofp .f32 : (⟨S800000, .i1⟩ : BufTy).Contents (Elt F) → (⟨S800000, .f32⟩ : BufTy).Contents (Elt F)),
    unary main_v172 main_v173 (broadcastInDim S800000x1 ![0] bcast_S800000_S800000x1_0 : (⟨S800000, .f32⟩ : BufTy).Contents (Elt F) → (⟨S800000x1, .f32⟩ : BufTy).Contents (Elt F)),
    unary main_v173 main_v174 (broadcastInDim S800000x32 ![0, 1] bcast_S800000x1_S800000x32_0_1 : (⟨S800000x1, .f32⟩ : BufTy).Contents (Elt F) → (⟨S800000x32, .f32⟩ : BufTy).Contents (Elt F)),
    binary main_v169 main_v174 main_v175 (mulf : (⟨S800000x32, .f32⟩ : BufTy).Contents (Elt F) → (⟨S800000x32, .f32⟩ : BufTy).Contents (Elt F) → (⟨S800000x32, .f32⟩ : BufTy).Contents (Elt F)),
    nullary main_cst_24 (constant S_ .f32 0x00000000#32),
    unary main_cst_24 main_v176 (broadcastInDim S50000x32 ![] bcast_S_S50000x32 : (⟨S_, .f32⟩ : BufTy).Contents (Elt F) → (⟨S50000x32, .f32⟩ : BufTy).Contents (Elt F)),
    unary main_v3 main_v177 (broadcastInDim S800000x1 ![0] bcast_S800000_S800000x1_0 : (⟨S800000, .i32⟩ : BufTy).Contents (Elt F) → (⟨S800000x1, .i32⟩ : BufTy).Contents (Elt F)),
    ternary main_v176 main_v177 main_v175 main_v178 ((fun x i u => Host.scatterAdd scatter_S50000x32_S800000x1_S800000x32_1_0_0_1 x i u) : (⟨S50000x32, .f32⟩ : BufTy).Contents (Elt F) → (⟨S800000x1, .i32⟩ : BufTy).Contents (Elt F) → (⟨S800000x32, .f32⟩ : BufTy).Contents (Elt F) → (⟨S50000x32, .f32⟩ : BufTy).Contents (Elt F)),
    nullary main_cst_25 (constant S_ .f32 0x00000000#32),
    unary main_cst_25 main_v179 (broadcastInDim S50000 ![] bcast_S_S50000 : (⟨S_, .f32⟩ : BufTy).Contents (Elt F) → (⟨S50000, .f32⟩ : BufTy).Contents (Elt F)),
    unary main_v3 main_v180 (broadcastInDim S800000x1 ![0] bcast_S800000_S800000x1_0 : (⟨S800000, .i32⟩ : BufTy).Contents (Elt F) → (⟨S800000x1, .i32⟩ : BufTy).Contents (Elt F)),
    ternary main_v179 main_v180 main_v172 main_v181 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_26 (constant S_ .f32 0x3F800000#32),
    unary main_cst_26 main_v182 (broadcastInDim S50000 ![] bcast_S_S50000 : (⟨S_, .f32⟩ : BufTy).Contents (Elt F) → (⟨S50000, .f32⟩ : BufTy).Contents (Elt F)),
    binary main_v181 main_v182 main_v183 (maximumf : (⟨S50000, .f32⟩ : BufTy).Contents (Elt F) → (⟨S50000, .f32⟩ : BufTy).Contents (Elt F) → (⟨S50000, .f32⟩ : BufTy).Contents (Elt F)),
    unary main_v183 main_v184 (broadcastInDim S50000x1 ![0] bcast_S50000_S50000x1_0 : (⟨S50000, .f32⟩ : BufTy).Contents (Elt F) → (⟨S50000x1, .f32⟩ : BufTy).Contents (Elt F)),
    unary main_v184 main_v185 (broadcastInDim S50000x32 ![0, 1] bcast_S50000x1_S50000x32_0_1 : (⟨S50000x1, .f32⟩ : BufTy).Contents (Elt F) → (⟨S50000x32, .f32⟩ : BufTy).Contents (Elt F)),
    binary main_v178 main_v185 main_v186 (Host.divf : (⟨S50000x32, .f32⟩ : BufTy).Contents (Elt F) → (⟨S50000x32, .f32⟩ : BufTy).Contents (Elt F) → (⟨S50000x32, .f32⟩ : BufTy).Contents (Elt F)) ]

theorem ops7_sub : (ops7 : List (HloOp τ sig (Elt F))).Forall fun op => op.bufs ⊆ tcRefs τ sig :=
  ⟨nullary_bufs_sub .., unary_bufs_sub .., binary_bufs_sub .., unary_bufs_sub .., unary_bufs_sub .., binary_bufs_sub ..,
    unary_bufs_sub .., reshape_bufs_sub .., binary_bufs_sub .., unary_bufs_sub .., reshape_bufs_sub .., unary_bufs_sub ..,
    unary_bufs_sub .., binary_bufs_sub .., nullary_bufs_sub .., unary_bufs_sub .., binary_bufs_sub .., nullary_bufs_sub ..,
    unary_bufs_sub .., binary_bufs_sub .., unary_bufs_sub .., unary_bufs_sub .., unary_bufs_sub .., binary_bufs_sub ..,
    nullary_bufs_sub .., unary_bufs_sub .., unary_bufs_sub .., ternary_bufs_sub .., nullary_bufs_sub .., unary_bufs_sub ..,
    unary_bufs_sub .., ternary_bufs_sub .., nullary_bufs_sub .., unary_bufs_sub .., binary_bufs_sub .., unary_bufs_sub ..,
    unary_bufs_sub .., binary_bufs_sub ..⟩

theorem ops7_fresh : (ops7 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl⟩

abbrev ops7_W : List (Ref sig .tc) :=
  [main_cst_22, main_v156, main_v157, main_v158, main_v159, main_v160, main_v161, main_v162,
   main_v163, main_v164, main_v165, main_v166, main_v167, main_v168, main_call7_cst, main_call7_v0,
   main_v169, main_c_23, main_v170, main_v171, main_v172, main_v173, main_v174, main_v175,
   main_cst_24, main_v176, main_v177, main_v178, main_cst_25, main_v179, main_v180, main_v181,
   main_cst_26, main_v182, main_v183, main_v184, main_v185, main_v186]

theorem ops7_writes : (ops7 : List (HloOp τ sig (Elt F))).Forall fun op =>
    op.writes ⊆ (ops7_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, nary_writes, Finset.singleton_subset_iff, List.mem_toFinset]; exact List.mem_map_of_mem (by decide))

end Cert.ReferenceIdeal.RefRun

end
-- ==== Proof.RefRunOps6.lean ====
import proofs.«420892_j79345225826944_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops6 : List (HloOp τ sig (Elt F)) :=
  [ binary main_v126 main_v133 main_v134 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    unary main_arg8 main_v135 ((extractStridedSlice S1x128x32 ![0, 0, 0] · slices_S3x128x32_S1x128x32_0_0_0) : (⟨S3x128x32, .f32⟩ : BufTy).Contents (Elt F) → (⟨S1x128x32, .f32⟩ : BufTy).Contents (Elt F)),
    reshape main_v135 main_v136 rfl shapeCasts_S1x128x32_S128x32,
    binary main_v134 main_v136 main_v137 ((fun l r => Host.dotGeneral dot_S800000x128_S128x32_S800000x32_1_0_0_1_n_n none l r) : (⟨S800000x128, .f32⟩ : BufTy).Contents (Elt F) → (⟨S128x32, .f32⟩ : BufTy).Contents (Elt F) → (⟨S800000x32, .f32⟩ : BufTy).Contents (Elt F)),
    unary main_arg9 main_v138 ((extractStridedSlice S1x32 ![0, 0] · slices_S3x32_S1x32_0_0) : (⟨S3x32, .f32⟩ : BufTy).Contents (Elt F) → (⟨S1x32, .f32⟩ : BufTy).Contents (Elt F)),
    reshape main_v138 main_v139 rfl shapeCasts_S1x32_S32,
    unary main_v139 main_v140 (broadcastInDim S1x32 ![1] bcast_S32_S1x32_1 : (⟨S32, .f32⟩ : BufTy).Contents (Elt F) → (⟨S1x32, .f32⟩ : BufTy).Contents (Elt F)),
    unary main_v140 main_v141 (broadcastInDim S800000x32 ![0, 1] bcast_S1x32_S800000x32_0_1 : (⟨S1x32, .f32⟩ : BufTy).Contents (Elt F) → (⟨S800000x32, .f32⟩ : BufTy).Contents (Elt F)),
    binary main_v137 main_v141 main_v142 (addf : (⟨S800000x32, .f32⟩ : BufTy).Contents (Elt F) → (⟨S800000x32, .f32⟩ : BufTy).Contents (Elt F) → (⟨S800000x32, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S800000x32, .f32⟩) main_call6_v0) (broadcastInDim S800000x32 ![] bcast_S_S800000x32),
    TRef.binary (TRef.of (T := ⟨S800000x32, .f32⟩) main_v142) (TRef.of (T := ⟨S800000x32, .f32⟩) main_call6_v0) (TRef.of (T := ⟨S800000x32, .f32⟩) main_v143) maximumf,
    nullary main_c_19 (constantI S_ 32 0#32),
    unary main_c_19 main_v144 (broadcastInDim S800000 ![] bcast_S_S800000 : (⟨S_, .i32⟩ : BufTy).Contents (Elt F) → (⟨S800000, .i32⟩ : BufTy).Contents (Elt F)),
    binary main_arg2 main_v144 main_v145 (cmpi .eq : (⟨S800000, .i32⟩ : BufTy).Contents (Elt F) → (⟨S800000, .i32⟩ : BufTy).Contents (Elt F) → (⟨S800000, .i1⟩ : BufTy).Contents (Elt F)),
    unary main_v145 main_v146 (uitofp .f32 : (⟨S800000, .i1⟩ : BufTy).Contents (Elt F) → (⟨S800000, .f32⟩ : BufTy).Contents (Elt F)),
    unary main_v146 main_v147 (broadcastInDim S800000x1 ![0] bcast_S800000_S800000x1_0 : (⟨S800000, .f32⟩ : BufTy).Contents (Elt F) → (⟨S800000x1, .f32⟩ : BufTy).Contents (Elt F)),
    unary main_v147 main_v148 (broadcastInDim S800000x32 ![0, 1] bcast_S800000x1_S800000x32_0_1 : (⟨S800000x1, .f32⟩ : BufTy).Contents (Elt F) → (⟨S800000x32, .f32⟩ : BufTy).Contents (Elt F)),
    binary main_v143 main_v148 main_v149 (mulf : (⟨S800000x32, .f32⟩ : BufTy).Contents (Elt F) → (⟨S800000x32, .f32⟩ : BufTy).Contents (Elt F) → (⟨S800000x32, .f32⟩ : BufTy).Contents (Elt F)),
    nullary main_cst_20 (constant S_ .f32 0x00000000#32),
    unary main_cst_20 main_v150 (broadcastInDim S50000x32 ![] bcast_S_S50000x32 : (⟨S_, .f32⟩ : BufTy).Contents (Elt F) → (⟨S50000x32, .f32⟩ : BufTy).Contents (Elt F)),
    unary main_v3 main_v151 (broadcastInDim S800000x1 ![0] bcast_S800000_S800000x1_0 : (⟨S800000, .i32⟩ : BufTy).Contents (Elt F) → (⟨S800000x1, .i32⟩ : BufTy).Contents (Elt F)),
    ternary main_v150 main_v151 main_v149 main_v152 ((fun x i u => Host.scatterAdd scatter_S50000x32_S800000x1_S800000x32_1_0_0_1 x i u) : (⟨S50000x32, .f32⟩ : BufTy).Contents (Elt F) → (⟨S800000x1, .i32⟩ : BufTy).Contents (Elt F) → (⟨S800000x32, .f32⟩ : BufTy).Contents (Elt F) → (⟨S50000x32, .f32⟩ : BufTy).Contents (Elt F)),
    nullary main_cst_21 (constant S_ .f32 0x00000000#32),
    unary main_cst_21 main_v153 (broadcastInDim S50000 ![] bcast_S_S50000 : (⟨S_, .f32⟩ : BufTy).Contents (Elt F) → (⟨S50000, .f32⟩ : BufTy).Contents (Elt F)),
    unary main_v3 main_v154 (broadcastInDim S800000x1 ![0] bcast_S800000_S800000x1_0 : (⟨S800000, .i32⟩ : BufTy).Contents (Elt F) → (⟨S800000x1, .i32⟩ : BufTy).Contents (Elt F)),
    ternary main_v153 main_v154 main_v146 main_v155 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)) ]

theorem ops6_sub : (ops6 : List (HloOp τ sig (Elt F))).Forall fun op => op.bufs ⊆ tcRefs τ sig :=
  ⟨binary_bufs_sub .., unary_bufs_sub .., reshape_bufs_sub .., binary_bufs_sub .., unary_bufs_sub .., reshape_bufs_sub ..,
    unary_bufs_sub .., unary_bufs_sub .., binary_bufs_sub .., nullary_bufs_sub .., unary_bufs_sub .., binary_bufs_sub ..,
    nullary_bufs_sub .., unary_bufs_sub .., binary_bufs_sub .., unary_bufs_sub .., unary_bufs_sub .., unary_bufs_sub ..,
    binary_bufs_sub .., nullary_bufs_sub .., unary_bufs_sub .., unary_bufs_sub .., ternary_bufs_sub .., nullary_bufs_sub ..,
    unary_bufs_sub .., unary_bufs_sub .., ternary_bufs_sub ..⟩

theorem ops6_fresh : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl⟩

abbrev ops6_W : List (Ref sig .tc) :=
  [main_v134, main_v135, main_v136, main_v137, main_v138, main_v139, main_v140, main_v141,
   main_v142, main_call6_cst, main_call6_v0, main_v143, main_c_19, main_v144, main_v145, main_v146,
   main_v147, main_v148, main_v149, main_cst_20, main_v150, main_v151, main_v152, main_cst_21,
   main_v153, main_v154, main_v155]

theorem ops6_writes : (ops6 : List (HloOp τ sig (Elt F))).Forall fun op =>
    op.writes ⊆ (ops6_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, nary_writes, Finset.singleton_subset_iff, List.mem_toFinset]; exact List.mem_map_of_mem (by decide))

end Cert.ReferenceIdeal.RefRun

end
-- ==== Proof.RefRunOps5.lean ====
import proofs.«420892_j79345225826944_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops5 : List (HloOp τ sig (Elt F)) :=
  [ unary main_v103 main_v104 (broadcastInDim S50000x64 ![0, 1] bcast_S1x64_S50000x64_0_1 : (⟨S1x64, .f32⟩ : BufTy).Contents (Elt F) → (⟨S50000x64, .f32⟩ : BufTy).Contents (Elt F)),
    binary main_v100 main_v104 main_v105 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x64, .f32⟩) main_call3_v0) (broadcastInDim S50000x64 ![] bcast_S_S50000x64),
    TRef.binary (TRef.of (T := ⟨S50000x64, .f32⟩) main_v105) (TRef.of (T := ⟨S50000x64, .f32⟩) main_call3_v0) (TRef.of (T := ⟨S50000x64, .f32⟩) main_v106) maximumf,
    unary main_arg6 main_v107 ((extractStridedSlice S1x96x64 ![1, 0, 0] · slices_S2x96x64_S1x96x64_1_0_0) : (⟨S2x96x64, .f32⟩ : BufTy).Contents (Elt F) → (⟨S1x96x64, .f32⟩ : BufTy).Contents (Elt F)),
    reshape main_v107 main_v108 rfl shapeCasts_S1x96x64_S96x64,
    binary main_v97 main_v108 main_v109 ((fun l r => Host.dotGeneral dot_S50000x96_S96x64_S50000x64_1_0_0_1_n_n none l r) : (⟨S50000x96, .f32⟩ : BufTy).Contents (Elt F) → (⟨S96x64, .f32⟩ : BufTy).Contents (Elt F) → (⟨S50000x64, .f32⟩ : BufTy).Contents (Elt F)),
    unary main_arg7 main_v110 ((extractStridedSlice S1x64 ![1, 0] · slices_S2x64_S1x64_1_0) : (⟨S2x64, .f32⟩ : BufTy).Contents (Elt F) → (⟨S1x64, .f32⟩ : BufTy).Contents (Elt F)),
    reshape main_v110 main_v111 rfl shapeCasts_S1x64_S64,
    unary main_v111 main_v112 (broadcastInDim S1x64 ![1] bcast_S64_S1x64_1 : (⟨S64, .f32⟩ : BufTy).Contents (Elt F) → (⟨S1x64, .f32⟩ : BufTy).Contents (Elt F)),
    unary main_v112 main_v113 (broadcastInDim S50000x64 ![0, 1] bcast_S1x64_S50000x64_0_1 : (⟨S1x64, .f32⟩ : BufTy).Contents (Elt F) → (⟨S50000x64, .f32⟩ : BufTy).Contents (Elt F)),
    binary main_v109 main_v113 main_v114 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x64, .f32⟩) main_call4_v0) (broadcastInDim S50000x64 ![] bcast_S_S50000x64),
    TRef.binary (TRef.of (T := ⟨S50000x64, .f32⟩) main_v114) (TRef.of (T := ⟨S50000x64, .f32⟩) main_call4_v0) (TRef.of (T := ⟨S50000x64, .f32⟩) main_v115) maximumf,
    nullary main_c_14 (constantI S_ 32 0#32),
    unary main_c_14 main_v116 (broadcastInDim S50000 ![] bcast_S_S50000 : (⟨S_, .i32⟩ : BufTy).Contents (Elt F) → (⟨S50000, .i32⟩ : BufTy).Contents (Elt F)),
    binary main_arg3 main_v116 main_v117 (cmpi .eq : (⟨S50000, .i32⟩ : BufTy).Contents (Elt F) → (⟨S50000, .i32⟩ : BufTy).Contents (Elt F) → (⟨S50000, .i1⟩ : BufTy).Contents (Elt F)),
    unary main_v117 main_v118 (broadcastInDim S50000x1 ![0] bcast_S50000_S50000x1_0 : (⟨S50000, .i1⟩ : BufTy).Contents (Elt F) → (⟨S50000x1, .i1⟩ : BufTy).Contents (Elt F)),
    TRef.unary (TRef.of (T := ⟨S50000x1, .i1⟩) main_v118) (TRef.of (T := ⟨S50000x64, .i1⟩) main_call5_v0) (broadcastInDim S50000x64 ![0, 1] bcast_S50000x1_S50000x64_0_1),
    TRef.ternary (TRef.of (T := ⟨S50000x64, .i1⟩) main_call5_v0) (TRef.of (T := ⟨S50000x64, .f32⟩) main_v106) (TRef.of (T := ⟨S50000x64, .f32⟩) main_v115) (TRef.of (T := ⟨S50000x64, .f32⟩) main_v119) select,
    nullary main_c_15 (constantI S_ 32 0#32),
    unary main_c_15 main_v120 (broadcastInDim S800000 ![] bcast_S_S800000 : (⟨S_, .i32⟩ : BufTy).Contents (Elt F) → (⟨S800000, .i32⟩ : BufTy).Contents (Elt F)),
    binary main_v1 main_v120 main_v121 (cmpi .slt : (⟨S800000, .i32⟩ : BufTy).Contents (Elt F) → (⟨S800000, .i32⟩ : BufTy).Contents (Elt F) → (⟨S800000, .i1⟩ : BufTy).Contents (Elt F)),
    nullary main_c_16 (constantI S_ 32 50000#32),
    unary main_c_16 main_v122 (broadcastInDim S800000 ![] bcast_S_S800000 : (⟨S_, .i32⟩ : BufTy).Contents (Elt F) → (⟨S800000, .i32⟩ : BufTy).Contents (Elt F)),
    binary main_v1 main_v122 main_v123 (addi : (⟨S800000, .i32⟩ : BufTy).Contents (Elt F) → (⟨S800000, .i32⟩ : BufTy).Contents (Elt F) → (⟨S800000, .i32⟩ : BufTy).Contents (Elt F)),
    ternary main_v121 main_v123 main_v1 main_v124 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v124 main_v125 (broadcastInDim S800000x1 ![0] bcast_S800000_S800000x1_0 : (⟨S800000, .i32⟩ : BufTy).Contents (Elt F) → (⟨S800000x1, .i32⟩ : BufTy).Contents (Elt F)),
    binary main_v119 main_v125 main_v126 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_17 (constantI S_ 32 0#32),
    unary main_c_17 main_v127 (broadcastInDim S800000 ![] bcast_S_S800000 : (⟨S_, .i32⟩ : BufTy).Contents (Elt F) → (⟨S800000, .i32⟩ : BufTy).Contents (Elt F)),
    binary main_v3 main_v127 main_v128 (cmpi .slt : (⟨S800000, .i32⟩ : BufTy).Contents (Elt F) → (⟨S800000, .i32⟩ : BufTy).Contents (Elt F) → (⟨S800000, .i1⟩ : BufTy).Contents (Elt F)),
    nullary main_c_18 (constantI S_ 32 50000#32),
    unary main_c_18 main_v129 (broadcastInDim S800000 ![] bcast_S_S800000 : (⟨S_, .i32⟩ : BufTy).Contents (Elt F) → (⟨S800000, .i32⟩ : BufTy).Contents (Elt F)),
    binary main_v3 main_v129 main_v130 (addi : (⟨S800000, .i32⟩ : BufTy).Contents (Elt F) → (⟨S800000, .i32⟩ : BufTy).Contents (Elt F) → (⟨S800000, .i32⟩ : BufTy).Contents (Elt F)),
    ternary main_v128 main_v130 main_v3 main_v131 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v131 main_v132 (broadcastInDim S800000x1 ![0] bcast_S800000_S800000x1_0 : (⟨S800000, .i32⟩ : BufTy).Contents (Elt F) → (⟨S800000x1, .i32⟩ : BufTy).Contents (Elt F)),
    binary main_v119 main_v132 main_v133 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ]

theorem ops5_sub : (ops5 : List (HloOp τ sig (Elt F))).Forall fun op => op.bufs ⊆ tcRefs τ sig :=
  ⟨unary_bufs_sub .., binary_bufs_sub .., nullary_bufs_sub .., unary_bufs_sub .., binary_bufs_sub .., unary_bufs_sub ..,
    reshape_bufs_sub .., binary_bufs_sub .., unary_bufs_sub .., reshape_bufs_sub .., unary_bufs_sub .., unary_bufs_sub ..,
    binary_bufs_sub .., nullary_bufs_sub .., unary_bufs_sub .., binary_bufs_sub .., nullary_bufs_sub .., unary_bufs_sub ..,
    binary_bufs_sub .., unary_bufs_sub .., unary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub ..⟩

theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

abbrev ops5_W : List (Ref sig .tc) :=
  [main_v104, main_v105, main_call3_cst, main_call3_v0, main_v106, main_v107, main_v108, main_v109,
   main_v110, main_v111, main_v112, main_v113, main_v114, main_call4_cst, main_call4_v0, main_v115,
   main_c_14, main_v116, main_v117, main_v118, main_call5_v0, main_v119, main_c_15, main_v120,
   main_v121, main_c_16, main_v122, main_v123, main_v124, main_v125, main_v126, main_c_17,
   main_v127, main_v128, main_c_18, main_v129, main_v130, main_v131, main_v132, main_v133]

theorem ops5_writes : (ops5 : List (HloOp τ sig (Elt F))).Forall fun op =>
    op.writes ⊆ (ops5_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, nary_writes, Finset.singleton_subset_iff, List.mem_toFinset]; exact List.mem_map_of_mem (by decide))

end Cert.ReferenceIdeal.RefRun

end
-- ==== Proof.RefRunOps4.lean ====
import proofs.«420892_j79345225826944_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops4 : List (HloOp τ sig (Elt F)) :=
  [ nary ![main_v44, main_v70, main_v96] main_v97 (fun u => concatenate S50000x96 1 [⟨S50000x32, u 0⟩, ⟨S50000x32, u 1⟩, ⟨S50000x32, u 2⟩] concatenates_S50000x32_S50000x32_S50000x32_S50000x96_d1),
    unary main_arg6 main_v98 ((extractStridedSlice S1x96x64 ![0, 0, 0] · slices_S2x96x64_S1x96x64_0_0_0) : (⟨S2x96x64, .f32⟩ : BufTy).Contents (Elt F) → (⟨S1x96x64, .f32⟩ : BufTy).Contents (Elt F)),
    reshape main_v98 main_v99 rfl shapeCasts_S1x96x64_S96x64,
    binary main_v97 main_v99 main_v100 ((fun l r => Host.dotGeneral dot_S50000x96_S96x64_S50000x64_1_0_0_1_n_n none l r) : (⟨S50000x96, .f32⟩ : BufTy).Contents (Elt F) → (⟨S96x64, .f32⟩ : BufTy).Contents (Elt F) → (⟨S50000x64, .f32⟩ : BufTy).Contents (Elt F)),
    unary main_arg7 main_v101 ((extractStridedSlice S1x64 ![0, 0] · slices_S2x64_S1x64_0_0) : (⟨S2x64, .f32⟩ : BufTy).Contents (Elt F) → (⟨S1x64, .f32⟩ : BufTy).Contents (Elt F)),
    reshape main_v101 main_v102 rfl shapeCasts_S1x64_S64,
    unary main_v102 main_v103 (broadcastInDim S1x64 ![1] bcast_S64_S1x64_1 : (⟨S64, .f32⟩ : BufTy).Contents (Elt F) → (⟨S1x64, .f32⟩ : BufTy).Contents (Elt F)) ]

theorem ops4_sub : (ops4 : List (HloOp τ sig (Elt F))).Forall fun op => op.bufs ⊆ tcRefs τ sig :=
  ⟨nary_bufs_sub .., unary_bufs_sub .., reshape_bufs_sub .., binary_bufs_sub .., unary_bufs_sub .., reshape_bufs_sub ..,
    unary_bufs_sub ..⟩

theorem ops4_fresh : (ops4 : List (HloOp τ sig (Elt F))).Forall fun op => op.fresh = ∅ :=
  ⟨rfl, rfl, rfl, rfl, rfl, rfl, rfl⟩

abbrev ops4_W : List (Ref sig .tc) :=
  [main_v97, main_v98, main_v99, main_v100, main_v101, main_v102, main_v103]

theorem ops4_writes : (ops4 : List (HloOp τ sig (Elt F))).Forall fun op =>
    op.writes ⊆ (ops4_W.map (Proc.devRef (τ := τ) .tc)).toFinset := by
  simp only [List.Forall]
  refine ⟨?_, ?_, ?_, ?_, ?_, ?_, ?_⟩ <;>
    (simp only [nullary_writes, unary_writes, binary_writes, ternary_writes, quaternary_writes, reshape_writes, nary_writes, Finset.singleton_subset_iff, List.mem_toFinset]; exact List.mem_map_of_mem (by decide))

end Cert.ReferenceIdeal.RefRun

end
-- ==== Proof.RefRunOps3.lean ====
import proofs.«420892_j79345225826944_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops3 : List (HloOp τ sig (Elt F)) :=
  [ unary main_arg4 main_v71 ((extractStridedSlice S1x256x32 ![2, 0, 0] · slices_S3x256x32_S1x256x32_2_0_0) : (⟨S3x256x32, .f32⟩ : BufTy).Contents (Elt F) → (⟨S1x256x32, .f32⟩ : BufTy).Contents (Elt F)),
    reshape main_v71 main_v72 rfl shapeCasts_S1x256x32_S256x32,
    binary main_v18 main_v72 main_v73 ((fun l r => Host.dotGeneral dot_S800000x256_S256x32_S800000x32_1_0_0_1_n_n none l r) : (⟨S800000x256, .f32⟩ : BufTy).Contents (Elt F) → (⟨S256x32, .f32⟩ : BufTy).Contents (Elt F) → (⟨S800000x32, .f32⟩ : BufTy).Contents (Elt F)),
    unary main_arg5 main_v74 ((extractStridedSlice S1x32 ![2, 0] · slices_S3x32_S1x32_2_0) : (⟨S3x32, .f32⟩ : BufTy).Contents (Elt F) → (⟨S1x32, .f32⟩ : BufTy).Contents (Elt F)),
    reshape main_v74 main_v75 rfl shapeCasts_S1x32_S32,
    unary main_v75 main_v76 (broadcastInDim S1x32 ![1] bcast_S32_S1x32_1 : (⟨S32, .f32⟩ : BufTy).Contents (Elt F) → (⟨S1x32, .f32⟩ : BufTy).Contents (Elt F)),
    unary main_v76 main_v77 (broadcastInDim S800000x32 ![0, 1] bcast_S1x32_S800000x32_0_1 : (⟨S1x32, .f32⟩ : BufTy).Contents (Elt F) → (⟨S800000x32, .f32⟩ : BufTy).Contents (Elt F)),
    binary main_v73 main_v77 main_v78 (addf : (⟨S800000x32, .f32⟩ : BufTy).Contents (Elt F) → (⟨S800000x32, .f32⟩ : BufTy).Contents (Elt F) → (⟨S800000x32, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S800000x32, .f32⟩) main_call2_v0) (broadcastInDim S800000x32 ![] bcast_S_S800000x32),
    TRef.binary (TRef.of (T := ⟨S800000x32, .f32⟩) main_v78) (TRef.of (T := ⟨S800000x32, .f32⟩) main_call2_v0) (TRef.of (T := ⟨S800000x32, .f32⟩) main_v79) maximumf,
    nullary main_c_10 (constantI S_ 32 2#32),
    unary main_c_10 main_v80 (broadcastInDim S800000 ![] bcast_S_S800000 : (⟨S_, .i32⟩ : BufTy).Contents (Elt F) → (⟨S800000, .i32⟩ : BufTy).Contents (Elt F)),
    binary main_arg2 main_v80 main_v81 (cmpi .eq : (⟨S800000, .i32⟩ : BufTy).Contents (Elt F) → (⟨S800000, .i32⟩ : BufTy).Contents (Elt F) → (⟨S800000, .i1⟩ : BufTy).Contents (Elt F)),
    unary main_v81 main_v82 (uitofp .f32 : (⟨S800000, .i1⟩ : BufTy).Contents (Elt F) → (⟨S800000, .f32⟩ : BufTy).Contents (Elt F)),
    unary main_v82 main_v83 (broadcastInDim S800000x1 ![0] bcast_S800000_S800000x1_0 : (⟨S800000, .f32⟩ : BufTy).Contents (Elt F) → (⟨S800000x1, .f32⟩ : BufTy).Contents (Elt F)),
    unary main_v83 main_v84 (broadcastInDim S800000x32 ![0, 1] bcast_S800000x1_S800000x32_0_1 : (⟨S800000x1, .f32⟩ : BufTy).Contents (Elt F) → (⟨S800000x32, .f32⟩ : BufTy).Contents (Elt F)),
    binary main_v79 main_v84 main_v85 (mulf : (⟨S800000x32, .f32⟩ : BufTy).Contents (Elt F) → (⟨S800000x32, .f32⟩ : BufTy).Contents (Elt F) → (⟨S800000x32, .f32⟩ : BufTy).Contents (Elt F)),
    nullary main_cst_11 (constant S_ .f32 0x00000000#32),
    unary main_cst_11 main_v86 (broadcastInDim S50000x32 ![] bcast_S_S50000x32 : (⟨S_, .f32⟩ : BufTy).Contents (Elt F) → (⟨S50000x32, .f32⟩ : BufTy).Contents (Elt F)),
    unary main_v3 main_v87 (broadcastInDim S800000x1 ![0] bcast_S800000_S800000x1_0 : (⟨S800000, .i32⟩ : BufTy).Contents (Elt F) → (⟨S800000x1, .i32⟩ : BufTy).Contents (Elt F)),
    ternary main_v86 main_v87 main_v85 main_v88 ((fun x i u => Host.scatterAdd scatter_S50000x32_S800000x1_S800000x32_1_0_0_1 x i u) : (⟨S50000x32, .f32⟩ : BufTy).Contents (Elt F) → (⟨S800000x1, .i32⟩ : BufTy).Contents (Elt F) → (⟨S800000x32, .f32⟩ : BufTy).Contents (Elt F) → (⟨S50000x32, .f32⟩ : BufTy).Contents (Elt F)),
    nullary main_cst_12 (constant S_ .f32 0x00000000#32),
    unary main_cst_12 main_v89 (broadcastInDim S50000 ![] bcast_S_S50000 : (⟨S_, .f32⟩ : BufTy).Contents (Elt F) → (⟨S50000, .f32⟩ : BufTy).Contents (Elt F)),
    unary main_v3 main_v90 (broadcastInDim S800000x1 ![0] bcast_S800000_S800000x1_0 : (⟨S800000, .i32⟩ : BufTy).Contents (Elt F) → (⟨S800000x1, .i32⟩ : BufTy).Contents (Elt F)),
    ternary main_v89 main_v90 main_v82 main_v91 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_13 (constant S_ .f32 0x3F800000#32),
    unary main_cst_13 main_v92 (broadcastInDim S50000 ![] bcast_S_S50000 : (⟨S_, .f32⟩ : BufTy).Contents (Elt F) → (⟨S50000, .f32⟩ : BufTy).Contents (Elt F)),
    binary main_v91 main_v92 main_v93 (maximumf : (⟨S50000, .f32⟩ : BufTy).Contents (Elt F) → (⟨S50000, .f32⟩ : BufTy).Contents (Elt F) → (⟨S50000, .f32⟩ : BufTy).Contents (Elt F)),
    unary main_v93 main_v94 (broadcastInDim S50000x1 ![0] bcast_S50000_S50000x1_0 : (⟨S50000, .f32⟩ : BufTy).Contents (Elt F) → (⟨S50000x1, .f32⟩ : BufTy).Contents (Elt F)),
    unary main_v94 main_v95 (broadcastInDim S50000x32 ![0, 1] bcast_S50000x1_S50000x32_0_1 : (⟨S50000x1, .f32⟩ : BufTy).Contents (Elt F) → (⟨S50000x32, .f32⟩ : BufTy).Contents (Elt F)),
    binary main_v88 main_v95 main_v96 (Host.divf : (⟨S50000x32, .f32⟩ : BufTy).Contents (Elt F) → (⟨S50000x32, .f32⟩ : BufTy).Contents (Elt F) → (⟨S50000x32, .f32⟩ : BufTy).Contents (Elt F)) ]

theorem ops3_sub : (ops3 : List (HloOp τ sig (Elt F))).Forall fun op => op.bufs ⊆ tcRefs τ sig :=
  ⟨unary_bufs_sub .., reshape_bufs_sub .., binary_bufs_sub .., unary_bufs_sub .., reshape_bufs_sub .., unary_bufs_sub ..,
    unary_bufs_sub .., binary_bufs_sub .., nullary_bufs_sub .., unary_bufs_sub .., binary_bufs_sub .., nullary_bufs_sub ..,
    unary_bufs_sub .., binary_bufs_sub .., unary_bufs_sub .., unary_bufs_sub .., unary_bufs_sub .., binary_bufs_sub ..,
    nullary_bufs_sub .., unary_bufs_sub .., unary_bufs_sub .., ternary_bufs_sub .., nullary_bufs_sub .., unary_bufs_sub ..,
    unary_bufs_sub .., ternary_bufs_sub .., nullary_bufs_sub .., unary_bufs_sub .., binary_bufs_sub .., unary_bufs_sub ..,
    unary_bufs_sub .., binary_bufs_sub ..⟩

theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl⟩

abbrev ops3_W : List (Ref sig .tc) :=
  [main_v71, main_v72, main_v73, main_v74, main_v75, main_v76, main_v77, main_v78,
   main_call2_cst, main_call2_v0, main_v79, main_c_10, main_v80, main_v81, main_v82, main_v83,
   main_v84, main_v85, main_cst_11, main_v86, main_v87, main_v88, main_cst_12, main_v89,
   main_v90, main_v91, main_cst_13, main_v92, main_v93, main_v94, main_v95, main_v96]

theorem ops3_writes : (ops3 : List (HloOp τ sig (Elt F))).Forall fun op =>
    op.writes ⊆ (ops3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, nary_writes, Finset.singleton_subset_iff, List.mem_toFinset]; exact List.mem_map_of_mem (by decide))

end Cert.ReferenceIdeal.RefRun

end
-- ==== Proof.RefRunOps2.lean ====
import proofs.«420892_j79345225826944_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops2 : List (HloOp τ sig (Elt F)) :=
  [ binary main_v47 main_v51 main_v52 (addf : (⟨S800000x32, .f32⟩ : BufTy).Contents (Elt F) → (⟨S800000x32, .f32⟩ : BufTy).Contents (Elt F) → (⟨S800000x32, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S800000x32, .f32⟩) main_call1_v0) (broadcastInDim S800000x32 ![] bcast_S_S800000x32),
    TRef.binary (TRef.of (T := ⟨S800000x32, .f32⟩) main_v52) (TRef.of (T := ⟨S800000x32, .f32⟩) main_call1_v0) (TRef.of (T := ⟨S800000x32, .f32⟩) main_v53) maximumf,
    nullary main_c_6 (constantI S_ 32 1#32),
    unary main_c_6 main_v54 (broadcastInDim S800000 ![] bcast_S_S800000 : (⟨S_, .i32⟩ : BufTy).Contents (Elt F) → (⟨S800000, .i32⟩ : BufTy).Contents (Elt F)),
    binary main_arg2 main_v54 main_v55 (cmpi .eq : (⟨S800000, .i32⟩ : BufTy).Contents (Elt F) → (⟨S800000, .i32⟩ : BufTy).Contents (Elt F) → (⟨S800000, .i1⟩ : BufTy).Contents (Elt F)),
    unary main_v55 main_v56 (uitofp .f32 : (⟨S800000, .i1⟩ : BufTy).Contents (Elt F) → (⟨S800000, .f32⟩ : BufTy).Contents (Elt F)),
    unary main_v56 main_v57 (broadcastInDim S800000x1 ![0] bcast_S800000_S800000x1_0 : (⟨S800000, .f32⟩ : BufTy).Contents (Elt F) → (⟨S800000x1, .f32⟩ : BufTy).Contents (Elt F)),
    unary main_v57 main_v58 (broadcastInDim S800000x32 ![0, 1] bcast_S800000x1_S800000x32_0_1 : (⟨S800000x1, .f32⟩ : BufTy).Contents (Elt F) → (⟨S800000x32, .f32⟩ : BufTy).Contents (Elt F)),
    binary main_v53 main_v58 main_v59 (mulf : (⟨S800000x32, .f32⟩ : BufTy).Contents (Elt F) → (⟨S800000x32, .f32⟩ : BufTy).Contents (Elt F) → (⟨S800000x32, .f32⟩ : BufTy).Contents (Elt F)),
    nullary main_cst_7 (constant S_ .f32 0x00000000#32),
    unary main_cst_7 main_v60 (broadcastInDim S50000x32 ![] bcast_S_S50000x32 : (⟨S_, .f32⟩ : BufTy).Contents (Elt F) → (⟨S50000x32, .f32⟩ : BufTy).Contents (Elt F)),
    unary main_v3 main_v61 (broadcastInDim S800000x1 ![0] bcast_S800000_S800000x1_0 : (⟨S800000, .i32⟩ : BufTy).Contents (Elt F) → (⟨S800000x1, .i32⟩ : BufTy).Contents (Elt F)),
    ternary main_v60 main_v61 main_v59 main_v62 ((fun x i u => Host.scatterAdd scatter_S50000x32_S800000x1_S800000x32_1_0_0_1 x i u) : (⟨S50000x32, .f32⟩ : BufTy).Contents (Elt F) → (⟨S800000x1, .i32⟩ : BufTy).Contents (Elt F) → (⟨S800000x32, .f32⟩ : BufTy).Contents (Elt F) → (⟨S50000x32, .f32⟩ : BufTy).Contents (Elt F)),
    nullary main_cst_8 (constant S_ .f32 0x00000000#32),
    unary main_cst_8 main_v63 (broadcastInDim S50000 ![] bcast_S_S50000 : (⟨S_, .f32⟩ : BufTy).Contents (Elt F) → (⟨S50000, .f32⟩ : BufTy).Contents (Elt F)),
    unary main_v3 main_v64 (broadcastInDim S800000x1 ![0] bcast_S800000_S800000x1_0 : (⟨S800000, .i32⟩ : BufTy).Contents (Elt F) → (⟨S800000x1, .i32⟩ : BufTy).Contents (Elt F)),
    ternary main_v63 main_v64 main_v56 main_v65 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_9 (constant S_ .f32 0x3F800000#32),
    unary main_cst_9 main_v66 (broadcastInDim S50000 ![] bcast_S_S50000 : (⟨S_, .f32⟩ : BufTy).Contents (Elt F) → (⟨S50000, .f32⟩ : BufTy).Contents (Elt F)),
    binary main_v65 main_v66 main_v67 (maximumf : (⟨S50000, .f32⟩ : BufTy).Contents (Elt F) → (⟨S50000, .f32⟩ : BufTy).Contents (Elt F) → (⟨S50000, .f32⟩ : BufTy).Contents (Elt F)),
    unary main_v67 main_v68 (broadcastInDim S50000x1 ![0] bcast_S50000_S50000x1_0 : (⟨S50000, .f32⟩ : BufTy).Contents (Elt F) → (⟨S50000x1, .f32⟩ : BufTy).Contents (Elt F)),
    unary main_v68 main_v69 (broadcastInDim S50000x32 ![0, 1] bcast_S50000x1_S50000x32_0_1 : (⟨S50000x1, .f32⟩ : BufTy).Contents (Elt F) → (⟨S50000x32, .f32⟩ : BufTy).Contents (Elt F)),
    binary main_v62 main_v69 main_v70 (Host.divf : (⟨S50000x32, .f32⟩ : BufTy).Contents (Elt F) → (⟨S50000x32, .f32⟩ : BufTy).Contents (Elt F) → (⟨S50000x32, .f32⟩ : BufTy).Contents (Elt F)) ]

theorem ops2_sub : (ops2 : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., unary_bufs_sub .., unary_bufs_sub .., unary_bufs_sub .., binary_bufs_sub .., nullary_bufs_sub ..,
    unary_bufs_sub .., unary_bufs_sub .., ternary_bufs_sub .., nullary_bufs_sub .., unary_bufs_sub .., unary_bufs_sub ..,
    ternary_bufs_sub .., nullary_bufs_sub .., unary_bufs_sub .., binary_bufs_sub .., unary_bufs_sub .., unary_bufs_sub ..,
    binary_bufs_sub ..⟩

theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl⟩

abbrev ops2_W : List (Ref sig .tc) :=
  [main_v52, main_call1_cst, main_call1_v0, main_v53, main_c_6, main_v54, main_v55, main_v56,
   main_v57, main_v58, main_v59, main_cst_7, main_v60, main_v61, main_v62, main_cst_8,
   main_v63, main_v64, main_v65, main_cst_9, main_v66, main_v67, main_v68, main_v69,
   main_v70]

theorem ops2_writes : (ops2 : List (HloOp τ sig (Elt F))).Forall fun op =>
    op.writes ⊆ (ops2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, nary_writes, Finset.singleton_subset_iff, List.mem_toFinset]; exact List.mem_map_of_mem (by decide))

end Cert.ReferenceIdeal.RefRun

end
-- ==== Proof.RefRunOps1.lean ====
import proofs.«420892_j79345225826944_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops1 : List (HloOp τ sig (Elt F)) :=
  [ binary main_v10 main_v17 main_v18 ((fun a b => concatenate S800000x256 1 [⟨S800000x128, a⟩, ⟨S800000x128, b⟩] concatenates_S800000x128_S800000x128_S800000x256_d1) : (⟨S800000x128, .f32⟩ : BufTy).Contents (Elt F) → (⟨S800000x128, .f32⟩ : BufTy).Contents (Elt F) → (⟨S800000x256, .f32⟩ : BufTy).Contents (Elt F)),
    unary main_arg4 main_v19 ((extractStridedSlice S1x256x32 ![0, 0, 0] · slices_S3x256x32_S1x256x32_0_0_0) : (⟨S3x256x32, .f32⟩ : BufTy).Contents (Elt F) → (⟨S1x256x32, .f32⟩ : BufTy).Contents (Elt F)),
    reshape main_v19 main_v20 rfl shapeCasts_S1x256x32_S256x32,
    binary main_v18 main_v20 main_v21 ((fun l r => Host.dotGeneral dot_S800000x256_S256x32_S800000x32_1_0_0_1_n_n none l r) : (⟨S800000x256, .f32⟩ : BufTy).Contents (Elt F) → (⟨S256x32, .f32⟩ : BufTy).Contents (Elt F) → (⟨S800000x32, .f32⟩ : BufTy).Contents (Elt F)),
    unary main_arg5 main_v22 ((extractStridedSlice S1x32 ![0, 0] · slices_S3x32_S1x32_0_0) : (⟨S3x32, .f32⟩ : BufTy).Contents (Elt F) → (⟨S1x32, .f32⟩ : BufTy).Contents (Elt F)),
    reshape main_v22 main_v23 rfl shapeCasts_S1x32_S32,
    unary main_v23 main_v24 (broadcastInDim S1x32 ![1] bcast_S32_S1x32_1 : (⟨S32, .f32⟩ : BufTy).Contents (Elt F) → (⟨S1x32, .f32⟩ : BufTy).Contents (Elt F)),
    unary main_v24 main_v25 (broadcastInDim S800000x32 ![0, 1] bcast_S1x32_S800000x32_0_1 : (⟨S1x32, .f32⟩ : BufTy).Contents (Elt F) → (⟨S800000x32, .f32⟩ : BufTy).Contents (Elt F)),
    binary main_v21 main_v25 main_v26 (addf : (⟨S800000x32, .f32⟩ : BufTy).Contents (Elt F) → (⟨S800000x32, .f32⟩ : BufTy).Contents (Elt F) → (⟨S800000x32, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S800000x32, .f32⟩) main_call0_v0) (broadcastInDim S800000x32 ![] bcast_S_S800000x32),
    TRef.binary (TRef.of (T := ⟨S800000x32, .f32⟩) main_v26) (TRef.of (T := ⟨S800000x32, .f32⟩) main_call0_v0) (TRef.of (T := ⟨S800000x32, .f32⟩) main_v27) maximumf,
    nullary main_c_3 (constantI S_ 32 0#32),
    unary main_c_3 main_v28 (broadcastInDim S800000 ![] bcast_S_S800000 : (⟨S_, .i32⟩ : BufTy).Contents (Elt F) → (⟨S800000, .i32⟩ : BufTy).Contents (Elt F)),
    binary main_arg2 main_v28 main_v29 (cmpi .eq : (⟨S800000, .i32⟩ : BufTy).Contents (Elt F) → (⟨S800000, .i32⟩ : BufTy).Contents (Elt F) → (⟨S800000, .i1⟩ : BufTy).Contents (Elt F)),
    unary main_v29 main_v30 (uitofp .f32 : (⟨S800000, .i1⟩ : BufTy).Contents (Elt F) → (⟨S800000, .f32⟩ : BufTy).Contents (Elt F)),
    unary main_v30 main_v31 (broadcastInDim S800000x1 ![0] bcast_S800000_S800000x1_0 : (⟨S800000, .f32⟩ : BufTy).Contents (Elt F) → (⟨S800000x1, .f32⟩ : BufTy).Contents (Elt F)),
    unary main_v31 main_v32 (broadcastInDim S800000x32 ![0, 1] bcast_S800000x1_S800000x32_0_1 : (⟨S800000x1, .f32⟩ : BufTy).Contents (Elt F) → (⟨S800000x32, .f32⟩ : BufTy).Contents (Elt F)),
    binary main_v27 main_v32 main_v33 (mulf : (⟨S800000x32, .f32⟩ : BufTy).Contents (Elt F) → (⟨S800000x32, .f32⟩ : BufTy).Contents (Elt F) → (⟨S800000x32, .f32⟩ : BufTy).Contents (Elt F)),
    nullary main_cst (constant S_ .f32 0x00000000#32),
    unary main_cst main_v34 (broadcastInDim S50000x32 ![] bcast_S_S50000x32 : (⟨S_, .f32⟩ : BufTy).Contents (Elt F) → (⟨S50000x32, .f32⟩ : BufTy).Contents (Elt F)),
    unary main_v3 main_v35 (broadcastInDim S800000x1 ![0] bcast_S800000_S800000x1_0 : (⟨S800000, .i32⟩ : BufTy).Contents (Elt F) → (⟨S800000x1, .i32⟩ : BufTy).Contents (Elt F)),
    ternary main_v34 main_v35 main_v33 main_v36 ((fun x i u => Host.scatterAdd scatter_S50000x32_S800000x1_S800000x32_1_0_0_1 x i u) : (⟨S50000x32, .f32⟩ : BufTy).Contents (Elt F) → (⟨S800000x1, .i32⟩ : BufTy).Contents (Elt F) → (⟨S800000x32, .f32⟩ : BufTy).Contents (Elt F) → (⟨S50000x32, .f32⟩ : BufTy).Contents (Elt F)),
    nullary main_cst_4 (constant S_ .f32 0x00000000#32),
    unary main_cst_4 main_v37 (broadcastInDim S50000 ![] bcast_S_S50000 : (⟨S_, .f32⟩ : BufTy).Contents (Elt F) → (⟨S50000, .f32⟩ : BufTy).Contents (Elt F)),
    unary main_v3 main_v38 (broadcastInDim S800000x1 ![0] bcast_S800000_S800000x1_0 : (⟨S800000, .i32⟩ : BufTy).Contents (Elt F) → (⟨S800000x1, .i32⟩ : BufTy).Contents (Elt F)),
    ternary main_v37 main_v38 main_v30 main_v39 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_5 (constant S_ .f32 0x3F800000#32),
    unary main_cst_5 main_v40 (broadcastInDim S50000 ![] bcast_S_S50000 : (⟨S_, .f32⟩ : BufTy).Contents (Elt F) → (⟨S50000, .f32⟩ : BufTy).Contents (Elt F)),
    binary main_v39 main_v40 main_v41 (maximumf : (⟨S50000, .f32⟩ : BufTy).Contents (Elt F) → (⟨S50000, .f32⟩ : BufTy).Contents (Elt F) → (⟨S50000, .f32⟩ : BufTy).Contents (Elt F)),
    unary main_v41 main_v42 (broadcastInDim S50000x1 ![0] bcast_S50000_S50000x1_0 : (⟨S50000, .f32⟩ : BufTy).Contents (Elt F) → (⟨S50000x1, .f32⟩ : BufTy).Contents (Elt F)),
    unary main_v42 main_v43 (broadcastInDim S50000x32 ![0, 1] bcast_S50000x1_S50000x32_0_1 : (⟨S50000x1, .f32⟩ : BufTy).Contents (Elt F) → (⟨S50000x32, .f32⟩ : BufTy).Contents (Elt F)),
    binary main_v36 main_v43 main_v44 (Host.divf : (⟨S50000x32, .f32⟩ : BufTy).Contents (Elt F) → (⟨S50000x32, .f32⟩ : BufTy).Contents (Elt F) → (⟨S50000x32, .f32⟩ : BufTy).Contents (Elt F)),
    unary main_arg4 main_v45 ((extractStridedSlice S1x256x32 ![1, 0, 0] · slices_S3x256x32_S1x256x32_1_0_0) : (⟨S3x256x32, .f32⟩ : BufTy).Contents (Elt F) → (⟨S1x256x32, .f32⟩ : BufTy).Contents (Elt F)),
    reshape main_v45 main_v46 rfl shapeCasts_S1x256x32_S256x32,
    binary main_v18 main_v46 main_v47 ((fun l r => Host.dotGeneral dot_S800000x256_S256x32_S800000x32_1_0_0_1_n_n none l r) : (⟨S800000x256, .f32⟩ : BufTy).Contents (Elt F) → (⟨S256x32, .f32⟩ : BufTy).Contents (Elt F) → (⟨S800000x32, .f32⟩ : BufTy).Contents (Elt F)),
    unary main_arg5 main_v48 ((extractStridedSlice S1x32 ![1, 0] · slices_S3x32_S1x32_1_0) : (⟨S3x32, .f32⟩ : BufTy).Contents (Elt F) → (⟨S1x32, .f32⟩ : BufTy).Contents (Elt F)),
    reshape main_v48 main_v49 rfl shapeCasts_S1x32_S32,
    unary main_v49 main_v50 (broadcastInDim S1x32 ![1] bcast_S32_S1x32_1 : (⟨S32, .f32⟩ : BufTy).Contents (Elt F) → (⟨S1x32, .f32⟩ : BufTy).Contents (Elt F)),
    unary main_v50 main_v51 (broadcastInDim S800000x32 ![0, 1] bcast_S1x32_S800000x32_0_1 : (⟨S1x32, .f32⟩ : BufTy).Contents (Elt F) → (⟨S800000x32, .f32⟩ : BufTy).Contents (Elt F)) ]

theorem ops1_sub : (ops1 : List (HloOp τ sig (Elt F))).Forall fun op => op.bufs ⊆ tcRefs τ sig :=
  ⟨binary_bufs_sub .., unary_bufs_sub .., reshape_bufs_sub .., binary_bufs_sub .., unary_bufs_sub .., reshape_bufs_sub ..,
    unary_bufs_sub .., unary_bufs_sub .., binary_bufs_sub .., nullary_bufs_sub .., unary_bufs_sub .., binary_bufs_sub ..,
    nullary_bufs_sub .., unary_bufs_sub .., binary_bufs_sub .., unary_bufs_sub .., unary_bufs_sub .., unary_bufs_sub ..,
    binary_bufs_sub .., nullary_bufs_sub .., unary_bufs_sub .., unary_bufs_sub .., ternary_bufs_sub .., nullary_bufs_sub ..,
    unary_bufs_sub .., unary_bufs_sub .., ternary_bufs_sub .., nullary_bufs_sub .., unary_bufs_sub .., binary_bufs_sub ..,
    unary_bufs_sub .., unary_bufs_sub .., binary_bufs_sub .., unary_bufs_sub .., reshape_bufs_sub .., binary_bufs_sub ..,
    unary_bufs_sub .., reshape_bufs_sub .., unary_bufs_sub .., unary_bufs_sub ..⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

abbrev ops1_W : List (Ref sig .tc) :=
  [main_v18, main_v19, main_v20, main_v21, main_v22, main_v23, main_v24, main_v25,
   main_v26, main_call0_cst, main_call0_v0, main_v27, main_c_3, main_v28, main_v29, main_v30,
   main_v31, main_v32, main_v33, main_cst, main_v34, main_v35, main_v36, main_cst_4,
   main_v37, main_v38, main_v39, main_cst_5, main_v40, main_v41, main_v42, main_v43,
   main_v44, main_v45, main_v46, main_v47, main_v48, main_v49, main_v50, main_v51]

theorem ops1_writes : (ops1 : List (HloOp τ sig (Elt F))).Forall fun op =>
    op.writes ⊆ (ops1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, nary_writes, Finset.singleton_subset_iff, List.mem_toFinset]; exact List.mem_map_of_mem (by decide))

end Cert.ReferenceIdeal.RefRun

end
-- ==== Proof.RefRunOps0.lean ====
import proofs.«420892_j79345225826944_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_1 (constantI S_ 32 0#32),
    unary main_c_1 main_v11 (broadcastInDim S800000 ![] bcast_S_S800000 : (⟨S_, .i32⟩ : BufTy).Contents (Elt F) → (⟨S800000, .i32⟩ : BufTy).Contents (Elt F)),
    binary main_v3 main_v11 main_v12 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v13 (broadcastInDim S800000 ![] bcast_S_S800000 : (⟨S_, .i32⟩ : BufTy).Contents (Elt F) → (⟨S800000, .i32⟩ : BufTy).Contents (Elt F)),
    binary main_v3 main_v13 main_v14 (addi : (⟨S800000, .i32⟩ : BufTy).Contents (Elt F) → (⟨S800000, .i32⟩ : BufTy).Contents (Elt F) → (⟨S800000, .i32⟩ : BufTy).Contents (Elt F)),
    ternary main_v12 main_v14 main_v3 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v15 main_v16 (broadcastInDim S800000x1 ![0] bcast_S800000_S800000x1_0 : (⟨S800000, .i32⟩ : BufTy).Contents (Elt F) → (⟨S800000x1, .i32⟩ : BufTy).Contents (Elt F)),
    binary main_arg0 main_v16 main_v17 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) ]

theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub ..⟩

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl⟩

abbrev ops0_W : List (Ref sig .tc) :=
  [main_v0, main_v1, main_v2, main_v3, main_c, main_v4, main_v5, main_c_0,
   main_v6, main_v7, main_v8, main_v9, main_v10, main_c_1, main_v11, main_v12,
   main_c_2, main_v13, main_v14, main_v15, main_v16, main_v17]

theorem ops0_writes : (ops0 : List (HloOp τ sig (Elt F))).Forall fun op =>
    op.writes ⊆ (ops0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, nary_writes, Finset.singleton_subset_iff, List.mem_toFinset]; exact List.mem_map_of_mem (by decide))

end Cert.ReferenceIdeal.RefRun

end
-- ==== Proof.RefRunStep0.lean ====
import proofs.«420892_j79345225826944_1_alg».proof.Proof.RefRunOps0
import proofs.«420892_j79345225826944_1_alg».proof.Proof.RefRead
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F] (V0 : Valuation τ sig (Elt F))

abbrev argRefs : List (Ref sig .tc) :=
  [main_arg0, main_arg1, main_arg2, main_arg3, main_arg4, main_arg5, main_arg6, main_arg7, main_arg8, main_arg9, main_arg10, main_arg11]

abbrev A0 : (⟨S50000x128, .f32⟩ : BufTy).Contents (Elt F) := V0 (Proc.devRef .tc main_arg0)
abbrev A1 : (⟨S2x800000, .i32⟩ : BufTy).Contents (Elt F) := V0 (Proc.devRef .tc main_arg1)
abbrev A2 : (⟨S800000, .i32⟩ : BufTy).Contents (Elt F) := V0 (Proc.devRef .tc main_arg2)
abbrev A3 : (⟨S50000, .i32⟩ : BufTy).Contents (Elt F) := V0 (Proc.devRef .tc main_arg3)
abbrev A4 : (⟨S3x256x32, .f32⟩ : BufTy).Contents (Elt F) := V0 (Proc.devRef .tc main_arg4)
abbrev A5 : (⟨S3x32, .f32⟩ : BufTy).Contents (Elt F) := V0 (Proc.devRef .tc main_arg5)
abbrev A6 : (⟨S2x96x64, .f32⟩ : BufTy).Contents (Elt F) := V0 (Proc.devRef .tc main_arg6)
abbrev A7 : (⟨S2x64, .f32⟩ : BufTy).Contents (Elt F) := V0 (Proc.devRef .tc main_arg7)
abbrev A8 : (⟨S3x128x32, .f32⟩ : BufTy).Contents (Elt F) := V0 (Proc.devRef .tc main_arg8)
abbrev A9 : (⟨S3x32, .f32⟩ : BufTy).Contents (Elt F) := V0 (Proc.devRef .tc main_arg9)
abbrev A10 : (⟨S2x96x128, .f32⟩ : BufTy).Contents (Elt F) := V0 (Proc.devRef .tc main_arg10)
abbrev A11 : (⟨S2x128, .f32⟩ : BufTy).Contents (Elt F) := V0 (Proc.devRef .tc main_arg11)

/-- What is known of a reference before a stretch still holds after it when the stretch does not write the reference. -/
theorem keep {l : List (HloOp τ sig (Elt F))} {Wl : List (Ref sig .tc)}
    (hw : l.Forall fun op => op.writes ⊆ (Wl.map (Proc.devRef (τ := τ) .tc)).toFinset) {V : Valuation τ sig (Elt F)}
    {r : Ref sig .tc} (hr : r ∉ Wl) {x : _} (h : V (Proc.devRef .tc r) = x) : after l V (Proc.devRef .tc r) = x :=
  (after_of_writes_sub l V hw hr).trans h

/-- No stretch writes an argument, so the arguments keep their first contents through it. -/
theorem keepArgs {l : List (HloOp τ sig (Elt F))} {Wl : List (Ref sig .tc)}
    (hw : l.Forall fun op => op.writes ⊆ (Wl.map (Proc.devRef (τ := τ) .tc)).toFinset)
    (hd : ∀ r ∈ (argRefs : List (Ref sig .tc)), r ∉ Wl) {V : Valuation τ sig (Elt F)}
    (h : ∀ r ∈ (argRefs : List (Ref sig .tc)), V (Proc.devRef .tc r) = V0 (Proc.devRef .tc r)) :
    ∀ r ∈ (argRefs : List (Ref sig .tc)), after l V (Proc.devRef .tc r) = V0 (Proc.devRef .tc r) :=
  fun r hr => keep hw (hd r hr) (h r hr)

/-- The contents after the first 1 stretch. -/
def val1 : Valuation τ sig (Elt F) := after ops0 V0

theorem val1_arg : ∀ r ∈ (argRefs : List (Ref sig .tc)), val1 V0 (Proc.devRef .tc r) = V0 (Proc.devRef .tc r) :=
  keepArgs V0 ops0_writes (by decide) fun _ _ => rfl

theorem val1_v1 : val1 V0 (Proc.devRef .tc main_v1) = Read.val_main_v1 (A1 V0) := by
  simp only [val1, ops0]
  after_results_simp
  rfl

theorem val1_v3 : val1 V0 (Proc.devRef .tc main_v3) = Read.val_main_v3 (A1 V0) := by
  simp only [val1, ops0]
  after_results_simp
  rfl

theorem val1_v10 : val1 V0 (Proc.devRef .tc main_v10) = Read.val_main_v10 (A0 V0) (A1 V0) := by
  simp only [val1, ops0]
  after_results_simp
  rfl

theorem val1_v17 : val1 V0 (Proc.devRef .tc main_v17) = Read.val_main_v17 (A0 V0) (A1 V0) := by
  simp only [val1, ops0]
  after_results_simp
  rfl

end Cert.ReferenceIdeal.RefRun

end
-- ==== Proof.RefRunStep1.lean ====
import proofs.«420892_j79345225826944_1_alg».proof.Proof.RefRunOps1
import proofs.«420892_j79345225826944_1_alg».proof.Proof.RefRunStep0

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F] (V0 : Valuation τ sig (Elt F))

/-- The contents after the first 2 stretches. -/
def val2 : Valuation τ sig (Elt F) := after ops1 (val1 V0)

theorem val2_arg : ∀ r ∈ (argRefs : List (Ref sig .tc)), val2 V0 (Proc.devRef .tc r) = V0 (Proc.devRef .tc r) :=
  keepArgs V0 ops1_writes (by decide) (val1_arg V0)

theorem val2_v3 : val2 V0 (Proc.devRef .tc main_v3) = Read.val_main_v3 (A1 V0) :=
  keep ops1_writes (by decide) (val1_v3 V0)

theorem val2_v18 : val2 V0 (Proc.devRef .tc main_v18) = Read.val_main_v18 (A0 V0) (A1 V0) := by
  simp only [val2, ops1]
  after_results_simp
  rw [val1_v10 V0, val1_v17 V0]
  rfl

theorem val2_v44 : val2 V0 (Proc.devRef .tc main_v44) = Read.val_main_v44 (A0 V0) (A1 V0) (A2 V0) (A4 V0) (A5 V0) := by
  simp only [val2, ops1]
  after_results_simp
  rw [val1_arg V0 main_arg2 (by decide), val1_arg V0 main_arg4 (by decide), val1_arg V0 main_arg5 (by decide), val1_v3 V0, val1_v10 V0, val1_v17 V0]
  rfl

theorem val2_v47 : val2 V0 (Proc.devRef .tc main_v47) = Read.val_main_v47 (A0 V0) (A1 V0) (A4 V0) := by
  simp only [val2, ops1]
  after_results_simp
  rw [val1_arg V0 main_arg4 (by decide), val1_v10 V0, val1_v17 V0]
  rfl

theorem val2_v51 : val2 V0 (Proc.devRef .tc main_v51) = Read.val_main_v51 (A5 V0) := by
  simp only [val2, ops1]
  after_results_simp
  rw [val1_arg V0 main_arg5 (by decide)]
  rfl

end Cert.ReferenceIdeal.RefRun

end
-- ==== Proof.RefRunStep2.lean ====
import proofs.«420892_j79345225826944_1_alg».proof.Proof.RefRunOps2
import proofs.«420892_j79345225826944_1_alg».proof.Proof.RefRunStep1

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F] (V0 : Valuation τ sig (Elt F))

/-- The contents after the first 3 stretches. -/
def val3 : Valuation τ sig (Elt F) := after ops2 (val2 V0)

theorem val3_arg : ∀ r ∈ (argRefs : List (Ref sig .tc)), val3 V0 (Proc.devRef .tc r) = V0 (Proc.devRef .tc r) :=
  keepArgs V0 ops2_writes (by decide) (val2_arg V0)

theorem val3_v3 : val3 V0 (Proc.devRef .tc main_v3) = Read.val_main_v3 (A1 V0) :=
  keep ops2_writes (by decide) (val2_v3 V0)

theorem val3_v18 : val3 V0 (Proc.devRef .tc main_v18) = Read.val_main_v18 (A0 V0) (A1 V0) :=
  keep ops2_writes (by decide) (val2_v18 V0)

theorem val3_v70 : val3 V0 (Proc.devRef .tc main_v70) = Read.val_main_v70 (A0 V0) (A1 V0) (A2 V0) (A4 V0) (A5 V0) := by
  simp only [val3, ops2]
  after_results_simp
  rw [val2_arg V0 main_arg2 (by decide), val2_v3 V0, val2_v47 V0, val2_v51 V0]
  rfl

end Cert.ReferenceIdeal.RefRun

end
-- ==== Proof.RefRunStep3.lean ====
import proofs.«420892_j79345225826944_1_alg».proof.Proof.RefRunOps3
import proofs.«420892_j79345225826944_1_alg».proof.Proof.RefRunStep2

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F] (V0 : Valuation τ sig (Elt F))

/-- The contents after the first 4 stretches. -/
def val4 : Valuation τ sig (Elt F) := after ops3 (val3 V0)

theorem val4_arg : ∀ r ∈ (argRefs : List (Ref sig .tc)), val4 V0 (Proc.devRef .tc r) = V0 (Proc.devRef .tc r) :=
  keepArgs V0 ops3_writes (by decide) (val3_arg V0)

theorem val4_v44 : val4 V0 (Proc.devRef .tc main_v44) = Read.val_main_v44 (A0 V0) (A1 V0) (A2 V0) (A4 V0) (A5 V0) :=
  keep ops3_writes (by decide) (keep ops2_writes (by decide) (val2_v44 V0))

theorem val4_v70 : val4 V0 (Proc.devRef .tc main_v70) = Read.val_main_v70 (A0 V0) (A1 V0) (A2 V0) (A4 V0) (A5 V0) :=
  keep ops3_writes (by decide) (val3_v70 V0)

theorem val4_v96 : val4 V0 (Proc.devRef .tc main_v96) = Read.val_main_v96 (A0 V0) (A1 V0) (A2 V0) (A4 V0) (A5 V0) := by
  simp only [val4, ops3]
  after_results_simp
  rw [val3_arg V0 main_arg2 (by decide), val3_arg V0 main_arg4 (by decide), val3_arg V0 main_arg5 (by decide), val3_v3 V0, val3_v18 V0]
  rfl

end Cert.ReferenceIdeal.RefRun

end
-- ==== Proof.LibNary3.lean ====
import Idealize.ShloMosaic.Lib.StableHlo.Run

noncomputable section

namespace Idealize.ShloMosaic.StableHlo

variable {nD : Nat} {τ : Topo} {sig : RefSig} {Val : EltTy → Type}
variable {x a b y : Ref sig .tc}

/-- An operation over three literal references reads each operand at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

end
-- ==== Proof.RefRunStep4.lean ====
import proofs.«420892_j79345225826944_1_alg».proof.Proof.RefRunOps4
import proofs.«420892_j79345225826944_1_alg».proof.Proof.RefRunStep3
import proofs.«420892_j79345225826944_1_alg».proof.Proof.LibNary3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F] (V0 : Valuation τ sig (Elt F))

/-- The contents after the first 5 stretches. -/
def val5 : Valuation τ sig (Elt F) := after ops4 (val4 V0)

theorem val5_arg : ∀ r ∈ (argRefs : List (Ref sig .tc)), val5 V0 (Proc.devRef .tc r) = V0 (Proc.devRef .tc r) :=
  keepArgs V0 ops4_writes (by decide) (val4_arg V0)

theorem val5_v1 : val5 V0 (Proc.devRef .tc main_v1) = Read.val_main_v1 (A1 V0) :=
  keep ops4_writes (by decide) (keep ops3_writes (by decide) (keep ops2_writes (by decide) (keep ops1_writes (by decide) (val1_v1 V0))))

theorem val5_v3 : val5 V0 (Proc.devRef .tc main_v3) = Read.val_main_v3 (A1 V0) :=
  keep ops4_writes (by decide) (keep ops3_writes (by decide) (val3_v3 V0))

theorem val5_v97 : val5 V0 (Proc.devRef .tc main_v97) = Read.val_main_v97 (A0 V0) (A1 V0) (A2 V0) (A4 V0) (A5 V0) := by
  simp only [val5, ops4]
  simp (disch := decide) only [after_cons, after_nil, nary3_result', nullary_result', unary_result', binary_result', ternary_result',
    reshape_result', nullary_result_ne', unary_result_ne', binary_result_ne', ternary_result_ne', reshape_result_ne', nary_result_ne']
  rw [val4_v44 V0, val4_v70 V0, val4_v96 V0]
  rfl

theorem val5_v100 : val5 V0 (Proc.devRef .tc main_v100) = Read.val_main_v100 (A0 V0) (A1 V0) (A2 V0) (A4 V0) (A5 V0) (A6 V0) := by
  simp only [val5, ops4]
  simp (disch := decide) only [after_cons, after_nil, nary3_result', nullary_result', unary_result', binary_result', ternary_result',
    reshape_result', nullary_result_ne', unary_result_ne', binary_result_ne', ternary_result_ne', reshape_result_ne', nary_result_ne']
  rw [val4_arg V0 main_arg6 (by decide), val4_v44 V0, val4_v70 V0, val4_v96 V0]
  rfl

theorem val5_v103 : val5 V0 (Proc.devRef .tc main_v103) = Read.val_main_v103 (A7 V0) := by
  simp only [val5, ops4]
  after_results_simp
  rw [val4_arg V0 main_arg7 (by decide)]
  rfl

end Cert.ReferenceIdeal.RefRun

end
-- ==== Proof.RefRunStep5.lean ====
import proofs.«420892_j79345225826944_1_alg».proof.Proof.RefRunOps5
import proofs.«420892_j79345225826944_1_alg».proof.Proof.RefRunStep4

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F] (V0 : Valuation τ sig (Elt F))

/-- The contents after the first 6 stretches. -/
def val6 : Valuation τ sig (Elt F) := after ops5 (val5 V0)

theorem val6_arg : ∀ r ∈ (argRefs : List (Ref sig .tc)), val6 V0 (Proc.devRef .tc r) = V0 (Proc.devRef .tc r) :=
  keepArgs V0 ops5_writes (by decide) (val5_arg V0)

theorem val6_v3 : val6 V0 (Proc.devRef .tc main_v3) = Read.val_main_v3 (A1 V0) :=
  keep ops5_writes (by decide) (val5_v3 V0)

theorem val6_v126 : val6 V0 (Proc.devRef .tc main_v126) = Read.val_main_v126 (A0 V0) (A1 V0) (A2 V0) (A3 V0) (A4 V0) (A5 V0) (A6 V0) (A7 V0) := by
  simp only [val6, ops5]
  after_results_simp
  rw [val5_arg V0 main_arg3 (by decide), val5_arg V0 main_arg6 (by decide), val5_arg V0 main_arg7 (by decide), val5_v1 V0, val5_v97 V0, val5_v100 V0, val5_v103 V0]
  rfl

theorem val6_v133 : val6 V0 (Proc.devRef .tc main_v133) = Read.val_main_v133 (A0 V0) (A1 V0) (A2 V0) (A3 V0) (A4 V0) (A5 V0) (A6 V0) (A7 V0) := by
  simp only [val6, ops5]
  after_results_simp
  rw [val5_arg V0 main_arg3 (by decide), val5_arg V0 main_arg6 (by decide), val5_arg V0 main_arg7 (by decide), val5_v3 V0, val5_v97 V0, val5_v100 V0, val5_v103 V0]
  rfl

end Cert.ReferenceIdeal.RefRun

end
-- ==== Proof.RefRunStep6.lean ====
import proofs.«420892_j79345225826944_1_alg».proof.Proof.RefRunOps6
import proofs.«420892_j79345225826944_1_alg».proof.Proof.RefRunStep5

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F] (V0 : Valuation τ sig (Elt F))

/-- The contents after the first 7 stretches. -/
def val7 : Valuation τ sig (Elt F) := after ops6 (val6 V0)

theorem val7_arg : ∀ r ∈ (argRefs : List (Ref sig .tc)), val7 V0 (Proc.devRef .tc r) = V0 (Proc.devRef .tc r) :=
  keepArgs V0 ops6_writes (by decide) (val6_arg V0)

theorem val7_v3 : val7 V0 (Proc.devRef .tc main_v3) = Read.val_main_v3 (A1 V0) :=
  keep ops6_writes (by decide) (val6_v3 V0)

theorem val7_v134 : val7 V0 (Proc.devRef .tc main_v134) = Read.val_main_v134 (A0 V0) (A1 V0) (A2 V0) (A3 V0) (A4 V0) (A5 V0) (A6 V0) (A7 V0) := by
  simp only [val7, ops6]
  after_results_simp
  rw [val6_v126 V0, val6_v133 V0]
  rfl

theorem val7_v152 : val7 V0 (Proc.devRef .tc main_v152) = Read.val_main_v152 (A0 V0) (A1 V0) (A2 V0) (A3 V0) (A4 V0) (A5 V0) (A6 V0) (A7 V0) (A8 V0) (A9 V0) := by
  simp only [val7, ops6]
  after_results_simp
  rw [val6_arg V0 main_arg2 (by decide), val6_arg V0 main_arg8 (by decide), val6_arg V0 main_arg9 (by decide), val6_v3 V0, val6_v126 V0, val6_v133 V0]
  rfl

theorem val7_v155 : val7 V0 (Proc.devRef .tc main_v155) = Read.val_main_v155 (A1 V0) (A2 V0) := by
  simp only [val7, ops6]
  after_results_simp
  rw [val6_arg V0 main_arg2 (by decide), val6_v3 V0]
  rfl

end Cert.ReferenceIdeal.RefRun

end
-- ==== Proof.RefRunStep7.lean ====
import proofs.«420892_j79345225826944_1_alg».proof.Proof.RefRunOps7
import proofs.«420892_j79345225826944_1_alg».proof.Proof.RefRunStep6

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F] (V0 : Valuation τ sig (Elt F))

/-- The contents after the first 8 stretches. -/
def val8 : Valuation τ sig (Elt F) := after ops7 (val7 V0)

theorem val8_arg : ∀ r ∈ (argRefs : List (Ref sig .tc)), val8 V0 (Proc.devRef .tc r) = V0 (Proc.devRef .tc r) :=
  keepArgs V0 ops7_writes (by decide) (val7_arg V0)

theorem val8_v3 : val8 V0 (Proc.devRef .tc main_v3) = Read.val_main_v3 (A1 V0) :=
  keep ops7_writes (by decide) (val7_v3 V0)

theorem val8_v134 : val8 V0 (Proc.devRef .tc main_v134) = Read.val_main_v134 (A0 V0) (A1 V0) (A2 V0) (A3 V0) (A4 V0) (A5 V0) (A6 V0) (A7 V0) :=
  keep ops7_writes (by decide) (val7_v134 V0)

theorem val8_v160 : val8 V0 (Proc.devRef .tc main_v160) = Read.val_main_v160 (A0 V0) (A1 V0) (A2 V0) (A3 V0) (A4 V0) (A5 V0) (A6 V0) (A7 V0) (A8 V0) (A9 V0) := by
  simp only [val8, ops7]
  after_results_simp
  rw [val7_v152 V0, val7_v155 V0]
  rfl

theorem val8_v186 : val8 V0 (Proc.devRef .tc main_v186) = Read.val_main_v186 (A0 V0) (A1 V0) (A2 V0) (A3 V0) (A4 V0) (A5 V0) (A6 V0) (A7 V0) (A8 V0) (A9 V0) := by
  simp only [val8, ops7]
  after_results_simp
  rw [val7_arg V0 main_arg2 (by decide), val7_arg V0 main_arg8 (by decide), val7_arg V0 main_arg9 (by decide), val7_v3 V0, val7_v134 V0]
  rfl

end Cert.ReferenceIdeal.RefRun

end
-- ==== Proof.RefRunStep8.lean ====
import proofs.«420892_j79345225826944_1_alg».proof.Proof.RefRunOps8
import proofs.«420892_j79345225826944_1_alg».proof.Proof.RefRunStep7

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F] (V0 : Valuation τ sig (Elt F))

/-- The contents after the first 9 stretches. -/
def val9 : Valuation τ sig (Elt F) := after ops8 (val8 V0)

theorem val9_arg : ∀ r ∈ (argRefs : List (Ref sig .tc)), val9 V0 (Proc.devRef .tc r) = V0 (Proc.devRef .tc r) :=
  keepArgs V0 ops8_writes (by decide) (val8_arg V0)

theorem val9_v204 : val9 V0 (Proc.devRef .tc main_v204) = Read.val_main_v204 (A0 V0) (A1 V0) (A2 V0) (A3 V0) (A4 V0) (A5 V0) (A6 V0) (A7 V0) (A8 V0) (A9 V0) := by
  simp only [val9, ops8]
  after_results_simp
  rw [val8_arg V0 main_arg2 (by decide), val8_arg V0 main_arg8 (by decide), val8_arg V0 main_arg9 (by decide), val8_v3 V0, val8_v134 V0]
  rfl

theorem val9_v207 : val9 V0 (Proc.devRef .tc main_v207) = Read.val_main_v207 (A1 V0) (A2 V0) := by
  simp only [val9, ops8]
  after_results_simp
  rw [val8_arg V0 main_arg2 (by decide), val8_v3 V0]
  rfl

end Cert.ReferenceIdeal.RefRun

end
-- ==== Proof.RefRunStep9.lean ====
import proofs.«420892_j79345225826944_1_alg».proof.Proof.RefRunOps9
import proofs.«420892_j79345225826944_1_alg».proof.Proof.RefRunStep8

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F] (V0 : Valuation τ sig (Elt F))

/-- The contents after the first 10 stretches. -/
def val10 : Valuation τ sig (Elt F) := after ops9 (val9 V0)

theorem val10_arg : ∀ r ∈ (argRefs : List (Ref sig .tc)), val10 V0 (Proc.devRef .tc r) = V0 (Proc.devRef .tc r) :=
  keepArgs V0 ops9_writes (by decide) (val9_arg V0)

theorem val10_v160 : val10 V0 (Proc.devRef .tc main_v160) = Read.val_main_v160 (A0 V0) (A1 V0) (A2 V0) (A3 V0) (A4 V0) (A5 V0) (A6 V0) (A7 V0) (A8 V0) (A9 V0) :=
  keep ops9_writes (by decide) (keep ops8_writes (by decide) (val8_v160 V0))

theorem val10_v186 : val10 V0 (Proc.devRef .tc main_v186) = Read.val_main_v186 (A0 V0) (A1 V0) (A2 V0) (A3 V0) (A4 V0) (A5 V0) (A6 V0) (A7 V0) (A8 V0) (A9 V0) :=
  keep ops9_writes (by decide) (keep ops8_writes (by decide) (val8_v186 V0))

theorem val10_v212 : val10 V0 (Proc.devRef .tc main_v212) = Read.val_main_v212 (A0 V0) (A1 V0) (A2 V0) (A3 V0) (A4 V0) (A5 V0) (A6 V0) (A7 V0) (A8 V0) (A9 V0) := by
  simp only [val10, ops9]
  after_results_simp
  rw [val9_v204 V0, val9_v207 V0]
  rfl

end Cert.ReferenceIdeal.RefRun

end
-- ==== Proof.RefRunStep10.lean ====
import proofs.«420892_j79345225826944_1_alg».proof.Proof.RefRunOps10
import proofs.«420892_j79345225826944_1_alg».proof.Proof.RefRunStep9

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F] (V0 : Valuation τ sig (Elt F))

/-- The contents after the first 11 stretches. -/
def val11 : Valuation τ sig (Elt F) := after ops10 (val10 V0)

theorem val11_arg : ∀ r ∈ (argRefs : List (Ref sig .tc)), val11 V0 (Proc.devRef .tc r) = V0 (Proc.devRef .tc r) :=
  keepArgs V0 ops10_writes (by decide) (val10_arg V0)

theorem val11_v235 : val11 V0 (Proc.devRef .tc main_v235) = Read.val_main_v235 (A0 V0) (A1 V0) (A2 V0) (A3 V0) (A4 V0) (A5 V0) (A6 V0) (A7 V0) (A8 V0) (A9 V0) (A10 V0) (A11 V0) := by
  simp only [val11, ops10]
  simp (disch := decide) only [after_cons, after_nil, nary3_result', nullary_result', unary_result', binary_result', ternary_result',
    reshape_result', nullary_result_ne', unary_result_ne', binary_result_ne', ternary_result_ne', reshape_result_ne', nary_result_ne']
  rw [val10_arg V0 main_arg3 (by decide), val10_arg V0 main_arg10 (by decide), val10_arg V0 main_arg11 (by decide), val10_v160 V0, val10_v186 V0, val10_v212 V0]
  rfl

end Cert.ReferenceIdeal.RefRun

end
-- ==== Proof.RefRun.lean ====
import proofs.«420892_j79345225826944_1_alg».proof.Proof.RefRunStep10

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of each printed window of @main, and of @main whole, as stretches in a row. -/
def win0 : List (HloOp τ sig (Elt F)) := ops0 ++ ops1
def win1 : List (HloOp τ sig (Elt F)) := ops2 ++ (ops3 ++ ops4)
def win2 : List (HloOp τ sig (Elt F)) := ops5 ++ ops6
def win3 : List (HloOp τ sig (Elt F)) := ops7 ++ ops8
def win4 : List (HloOp τ sig (Elt F)) := ops9 ++ ops10
def ops : List (HloOp τ sig (Elt F)) := win0 ++ (win1 ++ (win2 ++ (win3 ++ win4)))

set_option maxHeartbeats 4000000 in
theorem main_part0_eq (c : Dev nD) : main_part0 (F := F) c = seq win0 := rfl
set_option maxHeartbeats 4000000 in
theorem main_part1_eq (c : Dev nD) : main_part1 (F := F) c = seq win1 := rfl
set_option maxHeartbeats 4000000 in
theorem main_part2_eq (c : Dev nD) : main_part2 (F := F) c = seq win2 := rfl
set_option maxHeartbeats 4000000 in
theorem main_part3_eq (c : Dev nD) : main_part3 (F := F) c = seq win3 := rfl
set_option maxHeartbeats 4000000 in
theorem main_part4_eq (c : Dev nD) : main_part4 (F := F) c = seq win4 := rfl

theorem main_eq (c : Dev nD) : main (F := F) c = seq ops := by
  simp only [ops, seq_append, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, win0, win1, win2, win3, win4, List.forall_append]
  exact ⟨⟨ops0_sub, ops1_sub⟩, ⟨ops2_sub, ops3_sub, ops4_sub⟩, ⟨ops5_sub, ops6_sub⟩, ⟨ops7_sub, ops8_sub⟩, ops9_sub, ops10_sub⟩

theorem ops_fresh : ∀ op ∈ (ops : List (HloOp τ sig (Elt F))), op.fresh = ∅ := by
  refine List.forall_iff_forall_mem.mp ?_
  simp only [ops, win0, win1, win2, win3, win4, List.forall_append]
  exact ⟨⟨ops0_fresh, ops1_fresh⟩, ⟨ops2_fresh, ops3_fresh, ops4_fresh⟩, ⟨ops5_fresh, ops6_fresh⟩, ⟨ops7_fresh, ops8_fresh⟩, ops9_fresh, ops10_fresh⟩

/-- The contents after two lists in a row are those after the second from those after the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem after_ops (V0 : Valuation τ sig (Elt F)) : after ops V0 = val11 V0 := by
  simp only [ops, win0, win1, win2, win3, win4, after_app]
  rfl

/-- Every weakly fair execution ends with the result at the last stage of the arguments' first contents, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v235) = Cert.ReferenceIdeal.Read.val_main_v235 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run (defs (F := Ideal)) _ _).mono
    (fun _ h c =>
      have e := after_ops (launchContents m c)
      ⟨(h c main_v235).trans ((congrFun e _).trans (val11_v235 _)),
       (h c main_arg0).trans ((congrFun e _).trans (val11_arg _ main_arg0 (by decide))),
       (h c main_arg1).trans ((congrFun e _).trans (val11_arg _ main_arg1 (by decide))),
       (h c main_arg2).trans ((congrFun e _).trans (val11_arg _ main_arg2 (by decide))),
       (h c main_arg3).trans ((congrFun e _).trans (val11_arg _ main_arg3 (by decide))),
       (h c main_arg4).trans ((congrFun e _).trans (val11_arg _ main_arg4 (by decide))),
       (h c main_arg5).trans ((congrFun e _).trans (val11_arg _ main_arg5 (by decide))),
       (h c main_arg6).trans ((congrFun e _).trans (val11_arg _ main_arg6 (by decide))),
       (h c main_arg7).trans ((congrFun e _).trans (val11_arg _ main_arg7 (by decide))),
       (h c main_arg8).trans ((congrFun e _).trans (val11_arg _ main_arg8 (by decide))),
       (h c main_arg9).trans ((congrFun e _).trans (val11_arg _ main_arg9 (by decide))),
       (h c main_arg10).trans ((congrFun e _).trans (val11_arg _ main_arg10 (by decide))),
       (h c main_arg11).trans ((congrFun e _).trans (val11_arg _ main_arg11 (by decide)))⟩)
    (run_seq scopedRefs_eq scopedSems_eq (defs (F := Ideal)) (main (F := Ideal)) (fun _ => ops (F := Ideal)) main_eq (fun _ => ops_sub) m ρ
      (fun _ => ops_fresh))

end Cert.ReferenceIdeal.RefRun

end
-- ==== Proof.LayerSpec.lean ====
import Idealize.ShloMosaic.PureOps.Ideal
import Idealize.ShloMosaic.PureOps.Ideal.Laws
import Idealize.ShloMosaic.Lib.ValueIdx

noncomputable section

namespace Cert.Gnn

open Idealize.ShloMosaic

abbrev fz : EReal := Ideal.ofBits .f32 0x00000000#32

abbrev fone : EReal := Ideal.ofBits .f32 0x3F800000#32

/-- The indicator of two words being equal. -/
def ind (a b : BitVec 32) : EReal := if a = b then 1 else 0

/-- Edge `e`'s message for edge type `t` at unit `q`: the positive part of its features' affine image, kept only when the edge has type `t`. -/
def msg {K : ℕ} (feat : Fin 800000 → Fin K → EReal) (et : Fin 800000 → BitVec 32)
    (eW : Fin 3 → Fin K → Fin 32 → EReal) (eb : Fin 3 → Fin 32 → EReal)
    (e : Fin 800000) (t : Fin 3) (q : Fin 32) : EReal :=
  max ((∑ k : Fin K, feat e k * eW t k q) + eb t q) fz * ind (et e) (BitVec.ofNat 32 t.val)

/-- The sum of `f` over the edges whose destination word names node `n`. -/
def agg (dst : Fin 800000 → BitVec 32) (f : Fin 800000 → EReal) (n : Fin 50000) : EReal :=
  fz + ∑ e : Fin 800000, if (dst e).toInt = (n.val : ℤ) then f e else 0

/-- The mean message of type `t` at node `n`: the summed messages over the number of such edges, or over one when there is none. -/
def hid {K : ℕ} (feat : Fin 800000 → Fin K → EReal) (et : Fin 800000 → BitVec 32) (dst : Fin 800000 → BitVec 32)
    (eW : Fin 3 → Fin K → Fin 32 → EReal) (eb : Fin 3 → Fin 32 → EReal)
    (n : Fin 50000) (t : Fin 3) (q : Fin 32) : EReal :=
  Ideal.div (agg dst (fun e => msg feat et eW eb e t q) n)
    (max (agg dst (fun e => ind (et e) (BitVec.ofNat 32 t.val)) n) fone)

def tyOf (k : Fin 96) : Fin 3 := ⟨k.val / 32, by omega⟩
def unitOf (k : Fin 96) : Fin 32 := ⟨k.val % 32, by omega⟩

/-- Node type `u`'s update at unit `j`, from the 96 mean messages (type `k / 32`, unit `k % 32`). -/
def upd {Do : ℕ} (h : Fin 3 → Fin 32 → EReal) (nW : Fin 2 → Fin 96 → Fin Do → EReal) (nb : Fin 2 → Fin Do → EReal)
    (u : Fin 2) (j : Fin Do) : EReal :=
  max ((∑ k : Fin 96, h (tyOf k) (unitOf k) * nW u k j) + nb u j) fz

/-- One layer: each node takes the update of its own type. -/
def layer {K Do : ℕ} (feat : Fin 800000 → Fin K → EReal) (et : Fin 800000 → BitVec 32) (dst : Fin 800000 → BitVec 32)
    (nt : Fin 50000 → BitVec 32)
    (eW : Fin 3 → Fin K → Fin 32 → EReal) (eb : Fin 3 → Fin 32 → EReal)
    (nW : Fin 2 → Fin 96 → Fin Do → EReal) (nb : Fin 2 → Fin Do → EReal)
    (n : Fin 50000) (j : Fin Do) : EReal :=
  if nt n = 0#32 then upd (hid feat et dst eW eb n) nW nb 0 j else upd (hid feat et dst eW eb n) nW nb 1 j

/-- The same with the choice written as a sum of the two updates, each times the indicator of the node having that type. -/
def layerMasked {K Do : ℕ} (feat : Fin 800000 → Fin K → EReal) (et : Fin 800000 → BitVec 32) (dst : Fin 800000 → BitVec 32)
    (nt : Fin 50000 → BitVec 32)
    (eW : Fin 3 → Fin K → Fin 32 → EReal) (eb : Fin 3 → Fin 32 → EReal)
    (nW : Fin 2 → Fin 96 → Fin Do → EReal) (nb : Fin 2 → Fin Do → EReal)
    (n : Fin 50000) (j : Fin Do) : EReal :=
  upd (hid feat et dst eW eb n) nW nb 0 j * ind (nt n) 0#32 + upd (hid feat et dst eW eb n) nW nb 1 j * ind (nt n) 1#32

/-- Where every node's type word is 0 or 1 the two agree, since `x * 1 = x`, `x * 0 = 0` and `x + 0 = x` hold for every extended real. -/
theorem layerMasked_eq_layer {K Do : ℕ} (feat : Fin 800000 → Fin K → EReal) (et dst : Fin 800000 → BitVec 32)
    (nt : Fin 50000 → BitVec 32) (hnt : ∀ n, nt n = 0#32 ∨ nt n = 1#32)
    (eW : Fin 3 → Fin K → Fin 32 → EReal) (eb : Fin 3 → Fin 32 → EReal)
    (nW : Fin 2 → Fin 96 → Fin Do → EReal) (nb : Fin 2 → Fin Do → EReal) (n : Fin 50000) (j : Fin Do) :
    layerMasked feat et dst nt eW eb nW nb n j = layer feat et dst nt eW eb nW nb n j := by
  unfold layerMasked layer ind
  rcases hnt n with h | h
  · have h1 : ¬ ((0#32 : BitVec 32) = 1#32) := by decide
    rw [h, if_pos rfl, if_pos rfl, if_neg h1, mul_one, mul_zero, add_zero]
  · have h0 : ¬ ((1#32 : BitVec 32) = 0#32) := by decide
    rw [h, if_neg h0, if_neg h0, if_pos rfl, mul_one, mul_zero, zero_add]

end Cert.Gnn

end
-- ==== Proof.BlockValue.lean ====
import proofs.«420892_j79345225826944_1_alg».proof.Proof.Gen.KernelIdeal.Frame
import proofs.«420892_j79345225826944_1_alg».proof.Proof.LayerSpec
import Idealize.ShloMosaic.Lib.ValueIdx
import Idealize.ShloMosaic.Lib.Pipeline.Value
import Idealize.ShloMosaic.PureOps.Ideal.Laws

noncomputable section

namespace Cert.KernelIdeal.BlockValue

open Idealize.ShloMosaic Idealize.ShloMosaic.ValueIdx Cert.KernelIdeal Cert.KernelIdeal.Gen

/-- An M × K by K × N product into the zero matrix is, at row p and column q, the sum over the inner index. -/
theorem plain_apply {M K N : Nat} {φ₁ φ₂ : FTy} (y0 : FVec Ideal ⟨2, ![M, K]⟩ φ₁) (y1 : FVec Ideal ⟨2, ![K, N]⟩ φ₂) (p : Fin M) (q : Fin N) :
    matmul (DotDims.plain M K N) none y0 y1 (constant (F := Ideal) ⟨2, ![M, N]⟩ .f32 0x00000000#32) (ix2 p q)
      = ∑ k : Fin K, y0 (ix2 p k) * y1 (ix2 k q) := by
  refine (Ideal.matmul_constant_zero_apply _ none y0 y1 (ix2 p q)).trans ?_
  rw [← Equiv.sum_comp (contrEquiv1 (DotDims.plain M K N) K rfl rfl).symm]
  refine Finset.sum_congr rfl fun k _ => ?_
  have hk := contrEquiv1_symm_val (DotDims.plain M K N) K rfl rfl k
  congr 2 <;> [exact Shape.idx_ext₂ rfl hk; exact Shape.idx_ext₂ hk rfl]

/-- A row copied down the rows reads its own column. -/
theorem bcast_row {α : Type} {M N : Nat} (x : (⟨2, ![1, N]⟩ : Shape).Idx → α) (h : (⟨2, ![1, N]⟩ : Shape).Broadcasts ⟨2, ![M, N]⟩)
    (p : Fin M) (q : Fin N) : broadcastTo ⟨2, ![M, N]⟩ x h (ix2 p q) = x (ix2 (0 : Fin 1) q) :=
  broadcastTo_apply x h _ _ fun a => by
    match a with
    | ⟨0, _⟩ => rfl
    | ⟨1, _⟩ => show q.val = if N = 1 then 0 else q.val; split_ifs <;> omega

/-- A column copied along the columns reads its own row. -/
theorem bcast_col {α : Type} {M N : Nat} (x : (⟨2, ![M, 1]⟩ : Shape).Idx → α) (h : (⟨2, ![M, 1]⟩ : Shape).Broadcasts ⟨2, ![M, N]⟩)
    (p : Fin M) (q : Fin N) : broadcastTo ⟨2, ![M, N]⟩ x h (ix2 p q) = x (ix2 p (0 : Fin 1)) :=
  broadcastTo_apply x h _ _ fun a => by
    match a with
    | ⟨0, _⟩ => show p.val = if M = 1 then 0 else p.val; split_ifs <;> omega
    | ⟨1, _⟩ => rfl

/-- Columns o, o + 1, … of a matrix, read at column j, are the matrix at column o + j. -/
theorem slice_col {α : Type} {M N H : Nat} (o : Nat) (x : (⟨2, ![M, N]⟩ : Shape).Idx → α)
    (h : (⟨2, ![M, N]⟩ : Shape).Slices ![0, o] ⟨2, ![M, H]⟩) (p : Fin M) (j : Fin H) (q : Fin N) (hq : q.val = o + j.val) :
    extractStridedSlice ⟨2, ![M, H]⟩ ![0, o] x h (ix2 p j) = x (ix2 p q) :=
  extractStridedSlice_apply _ x h _ _ fun a => by
    match a with
    | ⟨0, _⟩ => exact (Nat.zero_add _).symm
    | ⟨1, _⟩ => exact hq

/-- The equality bit of two words, widened and read as a number, is their indicator. -/
theorem ind_of_word (a b : BitVec 32) :
    FloatOps.sitofp (F := Ideal) .f32 ((IntOp.cmpi .eq a b).setWidth 32) = Cert.Gnn.ind a b := by
  unfold Cert.Gnn.ind
  show ((((BitVec.ofBool (a == b)).setWidth 32).toInt : ℝ) : EReal) = _
  by_cases h : a = b
  · rw [if_pos h, beq_iff_eq.mpr h]; exact congrArg _ Int.cast_one
  · rw [if_neg h, beq_eq_false_iff_ne.mpr h]; exact congrArg _ Int.cast_zero

/-- The positive part of (row n of h times column q of w, plus the bias of column q). -/
def act {R K N : Nat} (h : (⟨2, ![R, K]⟩ : Shape).Idx → EReal) (w : (⟨2, ![K, N]⟩ : Shape).Idx → EReal)
    (b : (⟨2, ![1, N]⟩ : Shape).Idx → EReal) (n : Fin R) (q : Fin N) : EReal :=
  max ((∑ k : Fin K, h (ix2 n k) * w (ix2 k q)) + b (ix2 (0 : Fin 1) q)) Cert.Gnn.fz

/-- The positive part of a block product plus its bias row, at (p, q), when row p of the left block is row n of h and column q of the rest is that of w and b. -/
theorem act_at {M K N R : Nat} {φ₁ φ₂ : FTy} (x0 : FVec Ideal ⟨2, ![M, K]⟩ φ₁) (x2 : FVec Ideal ⟨2, ![K, N]⟩ φ₂)
    (x3 : FVec Ideal ⟨2, ![1, N]⟩ .f32) (hb : (⟨2, ![1, N]⟩ : Shape).Broadcasts ⟨2, ![M, N]⟩) (p : Fin M) (q : Fin N)
    (h : (⟨2, ![R, K]⟩ : Shape).Idx → EReal) (w : (⟨2, ![K, N]⟩ : Shape).Idx → EReal) (b : (⟨2, ![1, N]⟩ : Shape).Idx → EReal) (n : Fin R)
    (h0 : ∀ k : Fin K, x0 (ix2 p k) = h (ix2 n k)) (h2 : ∀ k : Fin K, x2 (ix2 k q) = w (ix2 k q)) (h3 : x3 (ix2 (0 : Fin 1) q) = b (ix2 (0 : Fin 1) q)) :
    maximumf (addf (matmul (DotDims.plain M K N) none x0 x2 (constant (F := Ideal) ⟨2, ![M, N]⟩ .f32 0x00000000#32))
        (broadcastTo ⟨2, ![M, N]⟩ x3 hb)) (broadcast ⟨2, ![M, N]⟩ (FloatOps.ofBits (F := Ideal) .f32 0x00000000#32)) (ix2 p q)
      = act h w b n q :=
  congrArg₂ (fun a b => max (a + b) Cert.Gnn.fz)
    ((plain_apply x0 x2 p q).trans (Finset.sum_congr rfl fun k _ => by rw [h0 k, h2 k])) ((bcast_row x3 hb p q).trans h3)

/-- A type mask copied along the columns, at row p: the indicator of row n's type word being wd. -/
theorem mask_at {M H R : Nat} (x1 : IVec ⟨2, ![M, 1]⟩ 32) (hlt : 1 < 32) (hb : (⟨2, ![M, 1]⟩ : Shape).Broadcasts ⟨2, ![M, H]⟩)
    (wd : BitVec 32) (p : Fin M) (j : Fin H) (nt : (⟨2, ![R, 1]⟩ : Shape).Idx → BitVec 32) (n : Fin R)
    (h1 : x1 (ix2 p (0 : Fin 1)) = nt (ix2 n (0 : Fin 1))) :
    broadcastTo ⟨2, ![M, H]⟩ (sitofp .f32 (extui 32 (cmpi .eq x1 (broadcast ⟨2, ![M, 1]⟩ wd)) hlt) : FVec Ideal ⟨2, ![M, 1]⟩ .f32) hb (ix2 p j)
      = Cert.Gnn.ind (nt (ix2 n (0 : Fin 1))) wd :=
  (bcast_col _ hb p j).trans ((ind_of_word _ wd).trans (congrArg (Cert.Gnn.ind · wd) h1))

/-- An entry of the block at offsets (r, 0) of a matrix sits at its own coordinates moved down r rows. -/
theorem unit_emb {m0 m1 n0 n1 : Nat} {off : Fin 2 → Nat} {inb : ∀ a, off a + (![n0, n1] : Fin 2 → Nat) a ≤ (⟨2, ![m0, m1]⟩ : Shape).size a}
    (r : Nat) (ho : off = ![r, 0]) (a : Fin n0) (b : Fin n1) (a' : Fin m0) (b' : Fin m1) (ha : a'.val = r + a.val) (hb : b'.val = b.val) :
    (Rect.unit (s := ⟨2, ![m0, m1]⟩) off ![n0, n1] inb).emb (ix2 a b) = ix2 a' b' := by
  subst ho
  exact Shape.idx_ext₂ (by rw [Rect.emb_apply]; show r + 1 * a.val = a'.val; omega) (by rw [Rect.emb_apply]; show 0 + 1 * b.val = b'.val; omega)

/-- The zero offsets, spelt as a constant function. -/
theorem zero2 : (![0, 0] : Fin 2 → Nat) = fun _ => 0 := funext fun a => by fin_cases a <;> rfl

/-- The floor of c / 32 in signed 32-bit words: the quotient toward zero, less one when the signs differ and the remainder is not zero. -/
def typeWord (c : BitVec 32) : BitVec 32 :=
  Scalar.select
    (IntOp.andi
      (IntOp.cmpi .ne (IntOp.subi ((IntOp.cmpi .sgt c 0#32).setWidth 32) ((IntOp.cmpi .slt c 0#32).setWidth 32))
        (Scalar.subi (Scalar.extui (Scalar.cmpi .sgt 32#32 0#32)) (Scalar.extui (Scalar.cmpi .slt 32#32 0#32))))
      (IntOp.cmpi .ne (IntOp.remsi .vector c 32#32) 0#32))
    (IntOp.subi (IntOp.divsi .vector c 32#32) 1#32)
    (IntOp.divsi .vector c 32#32)

/-- On each of the 96 column numbers that word is q / 32. -/
theorem typeWord_col : ∀ q : Fin 96, typeWord (BitVec.ofNat 32 q.val) = BitVec.ofNat 32 (q.val / 32) := by
  decide +kernel

/-- The type mask at row p and column q, read as a number, is the indicator of edge e having type q / 32. -/
theorem edge_mask (x1 : Vec Ideal S8000x1 .i32) (p : Fin 8000) (q : Fin 96) (et : S800000x1.Idx → BitVec 32) (e : Fin 800000)
    (h1 : x1 (ix2 p (0 : Fin 1)) = et (ix2 e (0 : Fin 1))) :
    FloatOps.sitofp (F := Ideal) .f32 (k0_pay3 (F := Ideal) x1 (ix2 p q))
      = Cert.Gnn.ind (et (ix2 e (0 : Fin 1))) (BitVec.ofNat 32 (q.val / 32)) := by
  unfold k0_pay3
  show FloatOps.sitofp (F := Ideal) .f32 ((IntOp.cmpi .eq (broadcastTo S8000x96 (shapeCast S8000x1 x1 shapeCasts_S8000x1_S8000x1) broadcasts_S8000x1_S8000x96 (ix2 p q))
      (typeWord (iota .tc S8000x96 32 [1] iota_S8000x96_d1_w32 (ix2 p q)))).setWidth 32) = _
  rw [shapeCast_self, bcast_col, iota_single_apply, ind_of_word, h1]
  exact congrArg _ (typeWord_col q)

/-- Entry (e, c) of the edge messages: the positive part of (features of e times column c of the weights, plus bias), kept where e has type c / 32. -/
def edgeOut {K : Nat} (feat : (⟨2, ![800000, K]⟩ : Shape).Idx → EReal) (et : S800000x1.Idx → BitVec 32)
    (w : (⟨2, ![K, 96]⟩ : Shape).Idx → EReal) (b : S1x96.Idx → EReal) : S800000x96.Idx → EReal :=
  fun i => act feat w b (i 0) (i 1) * Cert.Gnn.ind (et (ix2 (i 0) (0 : Fin 1))) (BitVec.ofNat 32 ((i 1).val / 32))

/-- Entry (n, j) of the node updates: the type-0 update (column lo j) where n's type word is 0 plus the type-1 update (column hi j) where it is 1. -/
def nodeOut {N H : Nat} (lo hi : Fin H → Fin N) (h : S50000x96.Idx → EReal) (nt : S50000x1.Idx → BitVec 32)
    (w : (⟨2, ![96, N]⟩ : Shape).Idx → EReal) (b : (⟨2, ![1, N]⟩ : Shape).Idx → EReal) : (⟨2, ![50000, H]⟩ : Shape).Idx → EReal :=
  fun i => act h w b (i 0) (lo (i 1)) * Cert.Gnn.ind (nt (ix2 (i 0) (0 : Fin 1))) 0#32
    + act h w b (i 0) (hi (i 1)) * Cert.Gnn.ind (nt (ix2 (i 0) (0 : Fin 1))) 1#32

end Cert.KernelIdeal.BlockValue

end
-- ==== Proof.EdgeValue0.lean ====
import proofs.«420892_j79345225826944_1_alg».proof.Proof.BlockValue

noncomputable section

namespace Cert.KernelIdeal.EdgeValue0

open Idealize.ShloMosaic Idealize.ShloMosaic.TcCoe Idealize.ShloMosaic.ValueIdx Idealize.SL.Sem
open Cert.KernelIdeal Cert.KernelIdeal.Gen Cert.KernelIdeal.BlockValue
open Idealize.ShloMosaic.Pipeline (Dat Cfg Window)

variable (V : (c : Dev nD) → (b : Ref sig .tc) → Buf (Elt Ideal) ((c : Thread nD τ).loc b))

abbrev featA (c : Dev nD) : S800000x256.Idx → EReal := V c main_v19
abbrev etA (c : Dev nD) : S800000x1.Idx → BitVec 32 := V c main_v20
abbrev wA (c : Dev nD) : S256x96.Idx → EReal := V c main_v22
abbrev bA (c : Dev nD) : S1x96.Idx → EReal := V c main_v23
abbrev outA (c : Dev nD) : S800000x96.Idx → EReal := (dat0 (F := Ideal) V c).arrAt 4 cfg0.N

/-- Which block of each array grid point t takes, axis by axis. -/
theorem block_index : ∀ t : Fin cfg0.N, (win0_0.rect t).off = ![t.val * 8000, 0] ∧ (win0_1.rect t).off = ![t.val * 8000, 0]
    ∧ (win0_2.rect t).off = ![0, 0] ∧ (win0_3.rect t).off = ![0, 0] ∧ (win0_4.rect t).off = ![t.val * 8000, 0] ∧ t.val < 100 :=
  (by decide +kernel : ∀ t : Fin grid0.N, _)

/-- Row p of point t's feature, type and result blocks is row e = 8000 t + p of the arrays; its weight and bias blocks are the whole arrays. -/
theorem emb_at (t : Fin cfg0.N) (p : Fin 8000) (e : Fin 800000) (he : e.val = t.val * 8000 + p.val) :
    (∀ k : Fin 256, ((cfg0.win 0).blk t).view.emb (ix2 p k) = (ix2 e k : S800000x256.Idx))
    ∧ ((cfg0.win 1).blk t).view.emb (ix2 p (0 : Fin 1)) = (ix2 e (0 : Fin 1) : S800000x1.Idx)
    ∧ (∀ (k : Fin 256) (q : Fin 96), ((cfg0.win 2).blk t).view.emb (ix2 k q) = (ix2 k q : S256x96.Idx))
    ∧ (∀ q : Fin 96, ((cfg0.win 3).blk t).view.emb (ix2 (0 : Fin 1) q) = (ix2 (0 : Fin 1) q : S1x96.Idx))
    ∧ ∀ q : Fin 96, ((cfg0.win 4).blk t).view.emb (ix2 p q) = (ix2 e q : S800000x96.Idx) := by
  obtain ⟨a, b, c, d, o, -⟩ := block_index t
  exact ⟨fun k => unit_emb _ a p k e k he rfl, unit_emb _ b p 0 e 0 he rfl, fun k q => unit_emb 0 c k q k q (Nat.zero_add _).symm rfl,
    fun q => unit_emb 0 d 0 q 0 q rfl rfl, fun q => unit_emb _ o p q e q he rfl⟩

/-- What point t writes is its block of edgeOut of the four arrays. -/
theorem written_eq (c : Dev nD) (t : Fin cfg0.N) :
    (dat0 (F := Ideal) V c).flushed 4 t
      = ((cfg0.win 4).blk t).view.read (Elt Ideal) (edgeOut (featA V c) (etA V c) (wA V c) (bA V c)) := by
  show (cfg0.win 4).cut (grid0.coords t) ((dat0 (F := Ideal) V c).after 4 t) = _
  rw [after0_4]
  unfold out0_4 k0_pay2
  rw [View.canon_unit_zero zero2]
  simp only [View.ld_unit_zero (S := S8000x256) zero2, View.ld_unit_zero (S := S8000x1) zero2,
    View.ld_unit_zero (S := S256x96) zero2, View.ld_unit_zero (S := S1x96) zero2]
  rw [shapeCast_self, shapeCast_self, shapeCast_self]
  funext j
  obtain ⟨p, q, rfl⟩ : ∃ (p : Fin 8000) (q : Fin 96), j = ix2 p q := ⟨j 0, j 1, eq_ix2 j⟩
  have ht := (block_index t).2.2.2.2.2
  obtain ⟨h0, h1, h2, h3, h4⟩ := emb_at t p ⟨t.val * 8000 + p.val, by omega⟩ rfl
  show _ = edgeOut _ _ _ _ (((cfg0.win 4).blk t).view.emb (ix2 p q))
  rw [h4]
  exact congrArg₂ (· * ·)
    (act_at _ _ _ _ p q (featA V c) (wA V c) (bA V c) _ (fun k => congrArg (featA V c) (h0 k)) (fun k => congrArg (wA V c) (h2 k q))
      (congrArg (bA V c) (h3 q)))
    (edge_mask _ p q (etA V c) _ (congrArg (etA V c) h1))

/-- Entry (e, q) of the result lies in the block of point e / 8000. -/
theorem rows_covered (i : S800000x96.Idx) : ∃ t : Fin cfg0.N, (cfg0.win 4).flush t = true ∧ i ∈ ((cfg0.win 4).blk t).view.set := by
  obtain ⟨e, q, rfl⟩ : ∃ (e : Fin 800000) (q : Fin 96), i = ix2 e q := ⟨i 0, i 1, eq_ix2 i⟩
  let t : Fin cfg0.N := ⟨e.val / 8000, lt_of_lt_of_eq (by omega) N_0.symm⟩
  refine ⟨t, flush0_4 t, ?_⟩
  rw [← (emb_at t ⟨e.val % 8000, Nat.mod_lt _ (by decide)⟩ e (Nat.div_add_mod' e.val 8000).symm).2.2.2.2 q]
  exact View.emb_mem_set _ _

theorem whole (c : Dev nD) : outA V c = edgeOut (featA V c) (etA V c) (wA V c) (bA V c) :=
  (dat0 (F := Ideal) V c).arrAt_eq_of_cover 4 _ (fun t _ => written_eq V c t) rows_covered

theorem value (c : Dev nD) (e : Fin 800000) (col : Fin 96) :
    outA V c (ix2 e col)
      = max ((∑ k : Fin 256, featA V c (ix2 e k) * wA V c (ix2 k col)) + bA V c (ix2 (0 : Fin 1) col)) Cert.Gnn.fz
          * Cert.Gnn.ind (etA V c (ix2 e (0 : Fin 1))) (BitVec.ofNat 32 (col.val / 32)) :=
  congrFun (whole V c) (ix2 e col)

end Cert.KernelIdeal.EdgeValue0

end
-- ==== Proof.NodeValue1.lean ====
import proofs.«420892_j79345225826944_1_alg».proof.Proof.BlockValue

noncomputable section

namespace Cert.KernelIdeal.NodeValue1

open Idealize.ShloMosaic Idealize.ShloMosaic.TcCoe Idealize.ShloMosaic.ValueIdx Idealize.SL.Sem
open Cert.KernelIdeal Cert.KernelIdeal.Gen Cert.KernelIdeal.BlockValue
open Idealize.ShloMosaic.Pipeline (Dat Cfg Window)

variable (V : (c : Dev nD) → (b : Ref sig .tc) → Buf (Elt Ideal) ((c : Thread nD τ).loc b))

abbrev hA (c : Dev nD) : S50000x96.Idx → EReal := V c main_v36
abbrev ntA (c : Dev nD) : S50000x1.Idx → BitVec 32 := V c main_v37
abbrev wA (c : Dev nD) : S96x128.Idx → EReal := V c main_v42
abbrev bA (c : Dev nD) : S1x128.Idx → EReal := V c main_v48
abbrev outA (c : Dev nD) : S50000x64.Idx → EReal := (dat1 (F := Ideal) V c).arrAt 4 cfg1.N

abbrev lo (j : Fin 64) : Fin 128 := ⟨j.val, by omega⟩
abbrev hi (j : Fin 64) : Fin 128 := ⟨j.val + 64, by omega⟩

/-- Comparing two words for equality gives the one-bit word 1 if and only if they are the same word. -/
theorem cmpi_eq_one_iff (a b : BitVec 32) : IntOp.cmpi .eq a b = 1#1 ↔ a = b :=
  ((by decide : ∀ c : Bool, BitVec.ofBool c = 1#1 ↔ c = true) _).trans beq_iff_eq

/-- Which block of each array grid point t takes, axis by axis. -/
theorem idx_facts : ∀ t : Fin cfg1.N, (win1_0.rect t).off = ![t.val * 5000, 0] ∧ (win1_1.rect t).off = ![t.val * 5000, 0]
    ∧ (win1_2.rect t).off = ![0, 0] ∧ (win1_3.rect t).off = ![0, 0] ∧ (win1_4.rect t).off = ![t.val * 5000, 0] ∧ t.val < 10 :=
  (by decide +kernel : ∀ t : Fin grid1.N, _)

/-- Row p of point t's hidden, type and result blocks is row n = 5000 t + p of the arrays; its weight and bias blocks are the whole arrays. -/
theorem emb_at (t : Fin cfg1.N) (p : Fin 5000) (n : Fin 50000) (hn : n.val = t.val * 5000 + p.val) :
    (∀ k : Fin 96, ((cfg1.win 0).blk t).view.emb (ix2 p k) = (ix2 n k : S50000x96.Idx))
    ∧ ((cfg1.win 1).blk t).view.emb (ix2 p (0 : Fin 1)) = (ix2 n (0 : Fin 1) : S50000x1.Idx)
    ∧ (∀ (k : Fin 96) (q : Fin 128), ((cfg1.win 2).blk t).view.emb (ix2 k q) = (ix2 k q : S96x128.Idx))
    ∧ (∀ q : Fin 128, ((cfg1.win 3).blk t).view.emb (ix2 (0 : Fin 1) q) = (ix2 (0 : Fin 1) q : S1x128.Idx))
    ∧ ∀ j : Fin 64, ((cfg1.win 4).blk t).view.emb (ix2 p j) = (ix2 n j : S50000x64.Idx) := by
  obtain ⟨a, b, c, d, o, -⟩ := idx_facts t
  exact ⟨fun k => unit_emb _ a p k n k hn rfl, unit_emb _ b p 0 n 0 hn rfl, fun k q => unit_emb 0 c k q k q (Nat.zero_add _).symm rfl,
    fun q => unit_emb 0 d 0 q 0 q rfl rfl, fun j => unit_emb _ o p j n j hn rfl⟩

/-- What point t writes is its block of nodeOut of the four arrays. -/
theorem flushed_eq (c : Dev nD) (t : Fin cfg1.N) :
    (dat1 (F := Ideal) V c).flushed 4 t
      = ((cfg1.win 4).blk t).view.read (Elt Ideal) (nodeOut lo hi (hA V c) (ntA V c) (wA V c) (bA V c)) := by
  show (cfg1.win 4).cut (grid1.coords t) ((dat1 (F := Ideal) V c).after 4 t) = _
  rw [after1_4]
  unfold out1_4 k1_pay1
  rw [View.canon_unit_zero zero2]
  simp only [View.ld_unit_zero (S := S5000x96) zero2, View.ld_unit_zero (S := S5000x1) zero2, View.ld_unit_zero (S := S96x128) zero2,
    View.ld_unit_zero (S := S1x128) zero2]
  rw [shapeCast_self, shapeCast_self, shapeCast_self, shapeCast_self]
  funext y
  obtain ⟨p, j, rfl⟩ : ∃ (p : Fin 5000) (j : Fin 64), y = ix2 p j := ⟨y 0, y 1, eq_ix2 y⟩
  have ht := (idx_facts t).2.2.2.2.2
  obtain ⟨h0, h1, h2, h3, h4⟩ := emb_at t p ⟨t.val * 5000 + p.val, by omega⟩ rfl
  show _ = nodeOut lo hi _ _ _ _ (((cfg1.win 4).blk t).view.emb (ix2 p j))
  rw [h4]
  have e0 := fun k => congrArg (hA V c) (h0 k)
  have e1 := congrArg (ntA V c) h1
  exact congrArg₂ (· + ·)
    (congrArg₂ (· * ·) ((slice_col 0 _ _ p j (lo j) (Nat.zero_add _).symm).trans
      (act_at _ _ _ _ p (lo j) (hA V c) (wA V c) (bA V c) _ e0 (fun k => congrArg (wA V c) (h2 k _)) (congrArg (bA V c) (h3 _))))
      (mask_at _ _ _ 0#32 p j (ntA V c) _ e1))
    (congrArg₂ (· * ·) ((slice_col 64 _ _ p j (hi j) (Nat.add_comm _ _)).trans
      (act_at _ _ _ _ p (hi j) (hA V c) (wA V c) (bA V c) _ e0 (fun k => congrArg (wA V c) (h2 k _)) (congrArg (bA V c) (h3 _))))
      (mask_at _ _ _ 1#32 p j (ntA V c) _ e1))

/-- Entry (n, j) of the result lies in the block of point n / 5000. -/
theorem cover (i : S50000x64.Idx) : ∃ t : Fin cfg1.N, (cfg1.win 4).flush t = true ∧ i ∈ ((cfg1.win 4).blk t).view.set := by
  obtain ⟨n, j, rfl⟩ : ∃ (n : Fin 50000) (j : Fin 64), i = ix2 n j := ⟨i 0, i 1, eq_ix2 i⟩
  let t : Fin cfg1.N := ⟨n.val / 5000, lt_of_lt_of_eq (by omega) N_1.symm⟩
  refine ⟨t, flush1_4 t, ?_⟩
  rw [← (emb_at t ⟨n.val % 5000, Nat.mod_lt _ (by decide)⟩ n (Nat.div_add_mod' n.val 5000).symm).2.2.2.2 j]
  exact View.emb_mem_set _ _

theorem array_eq (c : Dev nD) : outA V c = nodeOut lo hi (hA V c) (ntA V c) (wA V c) (bA V c) :=
  (dat1 (F := Ideal) V c).arrAt_eq_of_cover 4 _ (fun t _ => flushed_eq V c t) cover

theorem value (c : Dev nD) (n : Fin 50000) (j : Fin 64) :
    outA V c (ix2 n j)
      = max ((∑ k : Fin 96, hA V c (ix2 n k) * wA V c (ix2 k (lo j))) + bA V c (ix2 (0 : Fin 1) (lo j))) Cert.Gnn.fz
            * Cert.Gnn.ind (ntA V c (ix2 n (0 : Fin 1))) 0#32
        + max ((∑ k : Fin 96, hA V c (ix2 n k) * wA V c (ix2 k (hi j))) + bA V c (ix2 (0 : Fin 1) (hi j))) Cert.Gnn.fz
            * Cert.Gnn.ind (ntA V c (ix2 n (0 : Fin 1))) 1#32 :=
  congrFun (array_eq V c) (ix2 n j)

end Cert.KernelIdeal.NodeValue1

end
-- ==== Proof.LibRowScatterAdd.lean ====
import Idealize.ShloMosaic.Lib.ValueIdx
import Idealize.ShloMosaic.PureOps.Ideal.Laws

noncomputable section

namespace Idealize.ShloMosaic.ValueIdx

section RowScatterAdd

/-- The scatter that adds row `r` of `upd : [R, C]` onto row `idx[r, 0]` of an `[N, C]` operand. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C : Nat} (wf : ScatterDims.WF ⟨2, ![N, C]⟩ ⟨2, ![R, 1]⟩ ⟨2, ![R, C]⟩ [1] [0] [0] 1)

theorem rs_mem_sKept :
    (1 : Fin 2) ∈ (rowScatterDims N R C wf).sKept := by
  show (1 : Fin 2) ∈ (List.finRange 2).filter (fun a => a ∉ [(0 : Fin 2)])
  decide

theorem rs_not_mem_sKept :
    (0 : Fin 2) ∉ (rowScatterDims N R C wf).sKept := by
  show (0 : Fin 2) ∉ (List.finRange 2).filter (fun a => a ∉ [(0 : Fin 2)])
  decide

theorem rs_window0 (r : Fin R) (q' : Fin C) :
    (rowScatterDims N R C wf).window (ix2 r q') 0 = 0 := by
  unfold ScatterDims.window
  rw [dif_neg (rs_not_mem_sKept wf)]

theorem rs_window1 (r : Fin R) (q' : Fin C) :
    (rowScatterDims N R C wf).window (ix2 r q') 1 = q'.val := by
  unfold ScatterDims.window
  rw [dif_pos (rs_mem_sKept wf)]
  rfl

theorem rs_start1 {w : Nat}
    (idx : IVec ⟨2, ![R, 1]⟩ w) (r : Fin R) (q' : Fin C) :
    (rowScatterDims N R C wf).start (ix2 r q') idx 1 = 0 := by
  unfold ScatterDims.start
  rw [dif_neg (show (1 : Fin 2) ∉ [(0 : Fin 2)] by decide)]

theorem rs_start0 {w : Nat}
    (idx : IVec ⟨2, ![R, 1]⟩ w) (r : Fin R) (q' : Fin C) :
    (rowScatterDims N R C wf).start (ix2 r q') idx 0 = (idx (ix2 r (0 : Fin 1))).toInt := by
  unfold ScatterDims.start
  rw [dif_pos (show (0 : Fin 2) ∈ (rowScatterDims N R C wf).scatterDimsToOperandDims from List.mem_singleton.mpr rfl)]
  have hsi : (rowScatterDims N R C wf).siIdx (ix2 r q') ⟨List.idxOf (0 : Fin 2) (rowScatterDims N R C wf).scatterDimsToOperandDims,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]

/-- Update entry `(r, q')` lands on operand entry `(n, q)` exactly when the row's index word, read signed, is `n` and `q' = q`. -/
theorem rowScatter_resultIdx_iff {w : Nat}
    (idx : IVec ⟨2, ![R, 1]⟩ w) (r : Fin R) (q' : Fin C) (n : Fin N) (q : Fin C) :
    (rowScatterDims N R C wf).resultIdx? (ix2 r q') idx = some (ix2 n q)
      ↔ (idx (ix2 r (0 : Fin 1))).toInt = (n.val : Int) ∧ q' = q := by
  unfold ScatterDims.resultIdx?
  have hN : (![N, C] 0 : Nat) = N := rfl
  have hC : (![N, C] 1 : Nat) = C := rfl
  have hn := n.isLt
  have hq' := q'.isLt
  simp only [Fin.forall_fin_two, rs_start0, rs_start1, rs_window0, rs_window1]
  split
  · rw [Option.some.injEq]
    constructor
    · intro he
      have e0 : ((rowScatterDims N R C wf).start (ix2 r q') idx 0
          + ((rowScatterDims N R C wf).window (ix2 r q') 0 : Nat)).toNat = n.val :=
        congrArg (fun f => (f 0).val) he
      have e1 : ((rowScatterDims N R C wf).start (ix2 r q') idx 1
          + ((rowScatterDims N R C wf).window (ix2 r q') 1 : Nat)).toNat = q.val :=
        congrArg (fun f => (f 1).val) he
      rw [rs_start0, rs_window0] at e0
      rw [rs_start1, rs_window1] at e1
      exact ⟨by omega, Fin.ext (by omega)⟩
    · rintro ⟨e0, e1⟩
      funext a
      refine Fin.ext ?_
      match a with
      | ⟨0, _⟩ =>
        show ((rowScatterDims N R C wf).start (ix2 r q') idx 0
          + ((rowScatterDims N R C wf).window (ix2 r q') 0 : Nat)).toNat = n.val
        rw [rs_start0, rs_window0]; omega
      | ⟨1, _⟩ =>
        show ((rowScatterDims N R C wf).start (ix2 r q') idx 1
          + ((rowScatterDims N R C wf).window (ix2 r q') 1 : Nat)).toNat = q.val
        rw [rs_start1, rs_window1, e1]; omega
  · rename_i h
    constructor
    · intro he; cases he
    · rintro ⟨e0, e1⟩
      exact absurd ⟨⟨by omega, by omega⟩, by omega, by omega⟩ h

/-- So the result at `(n, q)` is the operand's entry plus the sum of `upd (r, q)` over the rows `r` sent to `n`. -/
theorem rowScatterAdd_apply {w : Nat}
    (x : (⟨2, ![N, C]⟩ : Shape).Idx → EReal) (idx : IVec ⟨2, ![R, 1]⟩ w)
    (upd : (⟨2, ![R, C]⟩ : Shape).Idx → EReal) (n : Fin N) (q : Fin C) :
    Ideal.hostScatterAdd (rowScatterDims N R C wf) x idx upd (ix2 n q)
      = x (ix2 n q) + ∑ r : Fin R, if (idx (ix2 r (0 : Fin 1))).toInt = (n.val : Int) then upd (ix2 r q) else 0 := by
  show x (ix2 n q) + ∑ j ∈ Finset.univ.filter
      (fun j => (rowScatterDims N R C wf).resultIdx? j idx = some (ix2 n q)), upd j = _
  congr 1
  rw [Finset.sum_filter, sum_idx2]
  refine Finset.sum_congr rfl (fun r _ => ?_)
  simp only [rowScatter_resultIdx_iff]
  by_cases h : (idx (ix2 r (0 : Fin 1))).toInt = (n.val : Int)
  · simp only [h, true_and, if_true]
    rw [Finset.sum_ite_eq' Finset.univ q (fun q' => upd (ix2 r q')), if_pos (Finset.mem_univ q)]
  · simp only [h, false_and, if_false, Finset.sum_const_zero]

end RowScatterAdd

end Idealize.ShloMosaic.ValueIdx

end
-- ==== Proof.LibHostRead.lean ====
import Idealize.ShloMosaic.PureOps.Ideal
import Idealize.ShloMosaic.Lib.ValueIdx

namespace Idealize.ShloMosaic.ValueIdx

open Idealize.ShloMosaic

/-- The host's float quotient at an index, over the extended reals. -/
theorem hostDivf_apply {s : Shape} {φ : FTy} (a b : FVec Ideal s φ) (i : s.Idx) :
    Host.divf a b i = Ideal.div (a i) (b i) := rfl

end Idealize.ShloMosaic.ValueIdx
-- ==== Proof.KHost0b.lean ====
import proofs.«420892_j79345225826944_1_alg».proof.Proof.Gen.KernelIdeal.Frame
import proofs.«420892_j79345225826944_1_alg».proof.Proof.LayerSpec
import proofs.«420892_j79345225826944_1_alg».proof.Proof.NodeValue1
import proofs.«420892_j79345225826944_1_alg».proof.Proof.LibRowScatterAdd
import proofs.«420892_j79345225826944_1_alg».proof.Proof.LibHostRead
import Idealize.ShloMosaic.Lib.ValueLayout
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

namespace Cert.KernelIdeal.KHost0b

open Idealize.ShloMosaic Idealize.ShloMosaic.TcCoe Idealize.ShloMosaic.ValueIdx Idealize.SL.Sem
open Cert.KernelIdeal Cert.KernelIdeal.Gen

section Layout

variable {α : Type}

/-- A vector stood up as a column keeps its entries. -/
theorem colCast_at {a : ℕ} (x : (⟨1, ![a]⟩ : Shape).Idx → α) (h : (⟨1, ![a]⟩ : Shape).ShapeCasts ⟨2, ![a, 1]⟩) (i : Fin a) :
    shapeCast ⟨2, ![a, 1]⟩ x h (ix2 i (0 : Fin 1)) = x (ix1 i) :=
  shapeCast_apply x h _ _ (by
    rw [Shape.rowMajor_val_one, Shape.rowMajor_val_two]; show i.val = i.val * 1 + 0; omega)

/-- Row `u` of a pair of rows, cut out and flattened. -/
theorem pairRow_at {w : ℕ} (x : (⟨2, ![2, w]⟩ : Shape).Idx → α) (u : Fin 2) (off : Fin 2 → ℕ) (hoff : off = ![u.val, 0])
    (hs : (⟨2, ![2, w]⟩ : Shape).Slices off ⟨2, ![1, w]⟩) (hc : (⟨2, ![1, w]⟩ : Shape).ShapeCasts ⟨1, ![w]⟩) (j : Fin w) :
    shapeCast ⟨1, ![w]⟩ (extractStridedSlice ⟨2, ![1, w]⟩ off x hs) hc (ix1 j) = x (ix2 u j) := by
  subst hoff
  exact (shapeCast_1a_a_apply _ hc j).trans (slice2_axis0_apply _ x hs 0 j u rfl)

/-- Matrix `u` of a pair of matrices, cut out and flattened. -/
theorem pairMat_at {a w : ℕ} (x : (⟨3, ![2, a, w]⟩ : Shape).Idx → α) (u : Fin 2) (off : Fin 3 → ℕ) (hoff : off = ![u.val, 0, 0])
    (hs : (⟨3, ![2, a, w]⟩ : Shape).Slices off ⟨3, ![1, a, w]⟩) (hc : (⟨3, ![1, a, w]⟩ : Shape).ShapeCasts ⟨2, ![a, w]⟩)
    (k : Fin a) (j : Fin w) :
    shapeCast ⟨2, ![a, w]⟩ (extractStridedSlice ⟨3, ![1, a, w]⟩ off x hs) hc (ix2 k j) = x (ix3 u k j) := by
  subst hoff
  exact (shapeCast_1ab_ab_apply _ hc k j).trans (extractStridedSlice_apply _ x hs _ _ fun b => by
    match b with
    | ⟨0, _⟩ => rfl
    | ⟨1, _⟩ => exact (Nat.zero_add _).symm
    | ⟨2, _⟩ => exact (Nat.zero_add _).symm)

/-- Two matrices side by side: column `j` of the first half is the first's. -/
theorem catCols_lo {a w W : ℕ} (x₁ x₂ : (⟨2, ![a, w]⟩ : Shape).Idx → α)
    (h : Shape.Concatenates [⟨2, ![a, w]⟩, ⟨2, ![a, w]⟩] ⟨2, ![a, W]⟩ 1) (k : Fin a) (j : Fin w) (hj : j.val < W) :
    concatenate ⟨2, ![a, W]⟩ 1 [⟨_, x₁⟩, ⟨_, x₂⟩] h (ix2 k ⟨j.val, hj⟩) = x₁ (ix2 k j) :=
  concatenate_pair_apply_left _ x₁ x₂ h _ rfl (ix2 k j) fun b => by
    match b with
    | ⟨0, _⟩ => rfl
    | ⟨1, _⟩ => rfl

/-- Column `w + j` is the second's column `j`. -/
theorem catCols_hi {a w W : ℕ} (x₁ x₂ : (⟨2, ![a, w]⟩ : Shape).Idx → α)
    (h : Shape.Concatenates [⟨2, ![a, w]⟩, ⟨2, ![a, w]⟩] ⟨2, ![a, W]⟩ 1) (k : Fin a) (j : Fin w) (hj : j.val + w < W) :
    concatenate ⟨2, ![a, W]⟩ 1 [⟨_, x₁⟩, ⟨_, x₂⟩] h (ix2 k ⟨j.val + w, hj⟩) = x₂ (ix2 k j) :=
  concatenate_pair_apply_right _ x₁ x₂ h _ rfl rfl (ix2 k j) (fun b hb => by
    match b, hb with
    | ⟨0, _⟩, _ => rfl
    | ⟨1, _⟩, hb => exact absurd rfl hb) rfl

/-- Two vectors end to end: entry `j` of the first half is the first's. -/
theorem catVec_lo {w W : ℕ} (x₁ x₂ : (⟨1, ![w]⟩ : Shape).Idx → α)
    (h : Shape.Concatenates [⟨1, ![w]⟩, ⟨1, ![w]⟩] ⟨1, ![W]⟩ 0) (j : Fin w) (hj : j.val < W) :
    concatenate ⟨1, ![W]⟩ 0 [⟨_, x₁⟩, ⟨_, x₂⟩] h (ix1 ⟨j.val, hj⟩) = x₁ (ix1 j) :=
  concatenate_pair_apply_left _ x₁ x₂ h _ rfl (ix1 j) fun b => by
    match b with
    | ⟨0, _⟩ => rfl

/-- Entry `w + j` is the second's entry `j`. -/
theorem catVec_hi {w W : ℕ} (x₁ x₂ : (⟨1, ![w]⟩ : Shape).Idx → α)
    (h : Shape.Concatenates [⟨1, ![w]⟩, ⟨1, ![w]⟩] ⟨1, ![W]⟩ 0) (j : Fin w) (hj : j.val + w < W) :
    concatenate ⟨1, ![W]⟩ 0 [⟨_, x₁⟩, ⟨_, x₂⟩] h (ix1 ⟨j.val + w, hj⟩) = x₂ (ix1 j) :=
  concatenate_pair_apply_right _ x₁ x₂ h _ rfl rfl (ix1 j) (fun b hb => by
    match b, hb with
    | ⟨0, _⟩, hb => exact absurd rfl hb) rfl

/-- Three `K × 32` matrices side by side: column `32 t + q` is unit `q` of matrix `t`. -/
theorem typeCols_at {K : ℕ} (w : (⟨3, ![3, K, 32]⟩ : Shape).Idx → α)
    (ht : (⟨3, ![3, K, 32]⟩ : Shape).Transposes [1, 0, 2] ⟨3, ![K, 3, 32]⟩)
    (hc : (⟨3, ![K, 3, 32]⟩ : Shape).ShapeCasts ⟨2, ![K, 96]⟩) (k : Fin K) (col : Fin 96) :
    shapeCast ⟨2, ![K, 96]⟩ (transpose ⟨3, ![K, 3, 32]⟩ [1, 0, 2] w ht) hc (ix2 k col)
      = w (ix3 (Cert.Gnn.tyOf col) k (Cert.Gnn.unitOf col)) := by
  refine (shapeCast_apply _ hc (ix2 k col) (ix3 k (Cert.Gnn.tyOf col) (Cert.Gnn.unitOf col)) (by
    rw [Shape.rowMajor_val_three, Shape.rowMajor_val_two]
    show (k.val * 3 + col.val / 32) * 32 + col.val % 32 = k.val * 96 + col.val
    omega)).trans ?_
  exact transpose_apply [1, 0, 2] w ht _ (ix3 (Cert.Gnn.tyOf col) k (Cert.Gnn.unitOf col)) fun b => by
    match b with
    | ⟨0, _⟩ => rfl
    | ⟨1, _⟩ => rfl
    | ⟨2, _⟩ => rfl

/-- Three rows of 32 end to end: entry `32 t + q` is unit `q` of row `t`. -/
theorem typeRow_at (b : S3x32.Idx → α) (col : Fin 96) :
    shapeCast S1x96 b shapeCasts_S3x32_S1x96 (ix2 (0 : Fin 1) col) = b (ix2 (Cert.Gnn.tyOf col) (Cert.Gnn.unitOf col)) :=
  shapeCast_apply b _ _ (ix2 (Cert.Gnn.tyOf col) (Cert.Gnn.unitOf col)) (by
    rw [Shape.rowMajor_val_two, Shape.rowMajor_val_two]
    show col.val / 32 * 32 + col.val % 32 = 0 * 96 + col.val
    omega)

end Layout

/-- The destination words: row 1 of the edge list, as a vector. -/
abbrev dstRow (ei : S2x800000.Idx → BitVec 32) : S800000.Idx → BitVec 32 :=
  shapeCast S800000 (extractStridedSlice S1x800000 ![1, 0] ei slices_S2x800000_S1x800000_1_0) shapeCasts_S1x800000_S800000

theorem dst_at (ei : S2x800000.Idx → BitVec 32) (e : Fin 800000) : dstRow ei (ix1 e) = ei (ix2 (1 : Fin 2) e) :=
  pairRow_at ei 1 _ rfl _ _ e

/-- A vector of edge words stood up as a column. -/
abbrev asCol (v : S800000.Idx → BitVec 32) : S800000x1.Idx → BitVec 32 := broadcastInDim S800000x1 ![0] bcast_S800000_S800000x1_0 v
abbrev etCols (et : S800000.Idx → BitVec 32) : S800000x3.Idx → BitVec 32 :=
  broadcastInDim S800000x3 ![0, 1] bcast_S800000x1_S800000x3_0_1 (asCol et)
abbrev iotaRows : S800000x3.Idx → BitVec 32 := broadcastInDim S800000x3 ![0, 1] bcast_S1x3_S800000x3_0_1 (iotaInDim S1x3 32 1)

theorem col_at (dst : S800000.Idx → BitVec 32) (e : Fin 800000) :
    asCol dst (ix2 e (0 : Fin 1)) = dst (ix1 e) :=
  broadcastInDim_apply _ _ dst _ (ix1 e) fun a => by
    match a with
    | ⟨0, _⟩ => rfl

def oneHot (et : S800000.Idx → BitVec 32) : S800000x3.Idx → EReal :=
  (uitofp .f32 (cmpi .eq (etCols et) iotaRows) : FVec Ideal S800000x3 .f32)

def cntTerm (dst : S800000.Idx → BitVec 32) (et : S800000.Idx → BitVec 32) : S50000x3.Idx → EReal :=
  Host.scatterAdd (F := Ideal) scatter_S50000x3_S800000x1_S800000x3_1_0_0_1
    (broadcastInDim S50000x3 ![] bcast_S_S50000x3 (constant (F := Ideal) S_ .f32 0x00000000#32))
    (asCol dst) (oneHot et)

def sumTerm (dst : S800000.Idx → BitVec 32) (msg : S800000x96.Idx → EReal) : S50000x96.Idx → EReal :=
  Host.scatterAdd (F := Ideal) scatter_S50000x96_S800000x1_S800000x96_1_0_0_1
    (broadcastInDim S50000x96 ![] bcast_S_S50000x96 (constant (F := Ideal) S_ .f32 0x00000000#32))
    (asCol dst) msg

def hidTerm (dst : S800000.Idx → BitVec 32) (msg : S800000x96.Idx → EReal) (et : S800000.Idx → BitVec 32) : S50000x96.Idx → EReal :=
  Host.divf (F := Ideal) (sumTerm dst msg)
    (maximumf
      (shapeCast S50000x96 (broadcastInDim S50000x3x32 ![0, 1] bcast_S50000x3_S50000x3x32_0_1 (cntTerm dst et))
        shapeCasts_S50000x3x32_S50000x96)
      (broadcastInDim S50000x96 ![] bcast_S_S50000x96 (constant (F := Ideal) S_ .f32 0x3F800000#32)))

/-- A one-bit test of equality, read as an unsigned number, is the indicator of equality. -/
theorem bit_at (a w : BitVec 32) : (((IntOp.cmpi .eq a w).toNat : ℝ) : EReal) = Cert.Gnn.ind a w := by
  unfold Cert.Gnn.ind
  by_cases h : a = w
  · rw [if_pos h, (NodeValue1.cmpi_eq_one_iff _ _).mpr h]
    show (((1 : ℕ) : ℝ) : EReal) = 1
    norm_num
  · rw [if_neg h, eq_zero_of_ne_one (fun e => h ((NodeValue1.cmpi_eq_one_iff _ _).mp e))]
    show (((0 : ℕ) : ℝ) : EReal) = 0
    norm_num

theorem oneHot_at (et : S800000.Idx → BitVec 32) (e : Fin 800000) (t : Fin 3) :
    oneHot et (ix2 e t) = Cert.Gnn.ind (et (ix1 e)) (BitVec.ofNat 32 t.val) := by
  have e1 : etCols et (ix2 e t) = et (ix1 e) :=
    (broadcastInDim_apply _ _ _ _ (ix2 e (0 : Fin 1)) fun a => by
      match a with
      | ⟨0, _⟩ => rfl
      | ⟨1, _⟩ => rfl).trans (col_at et e)
  have e2 : iotaRows (ix2 e t) = BitVec.ofNat 32 t.val :=
    broadcastInDim_apply _ _ _ _ (ix2 (0 : Fin 1) t) fun a => by
      match a with
      | ⟨0, _⟩ => rfl
      | ⟨1, _⟩ => rfl
  unfold oneHot
  show (((IntOp.cmpi .eq (etCols et (ix2 e t)) (iotaRows (ix2 e t))).toNat : ℝ) : EReal) = _
  rw [e1, e2]
  exact bit_at _ _

/-- A float word broadcast from rank 0 reads that word's value everywhere. -/
theorem splat_at {T : Shape} (h : S_.BroadcastsInDim T ![]) (b : BitVec (FTy.bits .f32)) (j : T.Idx) :
    broadcastInDim T ![] h (constant (F := Ideal) S_ .f32 b) j = Ideal.ofBits .f32 b := rfl

/-- On the extended reals the accumulating scatter is the exact sum of the colliding updates. -/
theorem hostScatterAdd_eq {s si su : Shape} {w : Nat} (d : ScatterDims s si su) (x : FVec Ideal s .f32) (idx : IVec si w)
    (upd : FVec Ideal su .f32) : Host.scatterAdd (F := Ideal) d x idx upd = Ideal.hostScatterAdd d x idx upd := rfl

theorem dims96_eq : scatter_S50000x96_S800000x1_S800000x96_1_0_0_1
    = rowScatterDims 50000 800000 96 scatter_S50000x96_S800000x1_S800000x96_1_0_0_1_wf := rfl

theorem dims3_eq : scatter_S50000x3_S800000x1_S800000x3_1_0_0_1
    = rowScatterDims 50000 800000 3 scatter_S50000x3_S800000x1_S800000x3_1_0_0_1_wf := rfl

/-- Rows added from zero onto the nodes their destination words name, read at a node and a column. -/
theorem rowSum_at {w : ℕ} (hwf : ScatterDims.WF ⟨2, ![50000, w]⟩ ⟨2, ![800000, 1]⟩ ⟨2, ![800000, w]⟩ [1] [0] [0] 1)
    (hb : S_.BroadcastsInDim ⟨2, ![50000, w]⟩ ![]) (dst : S800000.Idx → BitVec 32)
    (upd : (⟨2, ![800000, w]⟩ : Shape).Idx → EReal) (n : Fin 50000) (q : Fin w) :
    Host.scatterAdd (F := Ideal) (rowScatterDims 50000 800000 w hwf)
        (broadcastInDim ⟨2, ![50000, w]⟩ ![] hb (constant (F := Ideal) S_ .f32 0x00000000#32))
        (asCol dst) upd (ix2 n q)
      = Cert.Gnn.agg (fun e => dst (ix1 e)) (fun e => upd (ix2 e q)) n := by
  unfold Cert.Gnn.agg
  rw [hostScatterAdd_eq, rowScatterAdd_apply, splat_at]
  refine congrArg (Ideal.ofBits .f32 0x00000000#32 + ·) (Finset.sum_congr rfl fun r _ => ?_)
  rw [col_at]

/-- The mean at node `n`, column `k`: the summed column over the count of edge type `k / 32` floored at one. -/
theorem hidTerm_at (dst : S800000.Idx → BitVec 32) (msg : S800000x96.Idx → EReal) (et : S800000.Idx → BitVec 32)
    (n : Fin 50000) (k : Fin 96) :
    hidTerm dst msg et (ix2 n k)
      = Ideal.div (Cert.Gnn.agg (fun e => dst (ix1 e)) (fun e => msg (ix2 e k)) n)
          (max (Cert.Gnn.agg (fun e => dst (ix1 e)) (fun e => Cert.Gnn.ind (et (ix1 e)) (BitVec.ofNat 32 (k.val / 32))) n)
            Cert.Gnn.fone) := by
  unfold hidTerm sumTerm cntTerm
  rw [dims96_eq, dims3_eq]
  refine (hostDivf_apply _ _ _).trans (congrArg₂ Ideal.div
    (rowSum_at _ _ dst msg n k) ?_)
  refine (maximumf_apply _ _ _).trans (congrArg₂ max ?_ (splat_at _ _ _))
  refine (shapeCast_apply _ _ (ix2 n k) (ix3 n (Cert.Gnn.tyOf k) (Cert.Gnn.unitOf k)) (by
    rw [Shape.rowMajor_val_three, Shape.rowMajor_val_two]
    show (n.val * 3 + k.val / 32) * 32 + k.val % 32 = n.val * 96 + k.val
    omega)).trans ?_
  refine (broadcastInDim_apply _ _ _ _ (ix2 n (Cert.Gnn.tyOf k)) fun a => by
    match a with
    | ⟨0, _⟩ => rfl
    | ⟨1, _⟩ => rfl).trans ?_
  refine (rowSum_at _ _ dst (oneHot et) n _).trans ?_
  exact congrArg (Cert.Gnn.agg _ · n) (funext fun e => oneHot_at et e _)

variable (m : (ℓ : Loc nD τ sig) → Buf (Elt Ideal) ℓ) (ρ : Dev nD → PrngReg)

abbrev eiA (c : Dev nD) : S2x800000.Idx → BitVec 32 := m ((c : Thread nD τ).loc main_arg1)
abbrev etA (c : Dev nD) : S800000.Idx → BitVec 32 := m ((c : Thread nD τ).loc main_arg2)
abbrev ntA (c : Dev nD) : S50000.Idx → BitVec 32 := m ((c : Thread nD τ).loc main_arg3)
abbrev nWA (c : Dev nD) : S2x96x64.Idx → EReal := m ((c : Thread nD τ).loc main_arg6)
abbrev nbA (c : Dev nD) : S2x64.Idx → EReal := m ((c : Thread nD τ).loc main_arg7)

abbrev msgA (c : Dev nD) : S800000x96.Idx → EReal := W2 (F := Ideal) m ρ c (Proc.devRef .tc main_v24)
abbrev hA (c : Dev nD) : S50000x96.Idx → EReal := W5 (F := Ideal) m ρ c (Proc.devRef .tc main_v36)
abbrev ntcA (c : Dev nD) : S50000x1.Idx → BitVec 32 := W5 (F := Ideal) m ρ c (Proc.devRef .tc main_v37)
abbrev wA (c : Dev nD) : S96x128.Idx → EReal := W5 (F := Ideal) m ρ c (Proc.devRef .tc main_v42)
abbrev bA (c : Dev nD) : S1x128.Idx → EReal := W5 (F := Ideal) m ρ c (Proc.devRef .tc main_v48)

abbrev wr0 : List (Ref sig .tc) := [main_v0, main_v1, main_v2, main_v3, main_v4, main_c, main_v5, main_v6, main_c_0, main_v7, main_v8, main_v9, main_v10, main_v11, main_c_1, main_v12, main_v13, main_c_2, main_v14, main_v15, main_v16, main_v17, main_v18, main_v19, main_v20, main_v21, main_v22, main_v23]
abbrev wr1 : List (Ref sig .tc) := [main_cst, main_v25, main_v26, main_v27]
abbrev wr1_1 : List (Ref sig .tc) := [main_call0_v0, main_call0_v1, main_call0_v2, main_call0_v3, main_call0_v4, main_v28]
abbrev wr1_2 : List (Ref sig .tc) := [main_cst_3, main_v29, main_v30, main_v31, main_v32, main_v33, main_cst_4, main_v34, main_v35, main_v36, main_v37, main_v38, main_v39, main_v40, main_v41, main_v42, main_v43, main_v44, main_v45, main_v46, main_v47, main_v48]
abbrev wr2 : List (Ref sig .tc) := [main_v50, main_c_5, main_v51, main_v52, main_c_6, main_v53, main_v54, main_v55, main_v56, main_v57, main_c_7, main_v58, main_v59, main_c_8, main_v60, main_v61, main_v62, main_v63, main_v64, main_v65, main_v66, main_v67, main_v68, main_v69]

/-- Each stretch of operations between launches writes only the buffers of its list. -/
theorem wr_subs :
    ((hostOps0 (F := Ideal)).Forall fun op => op.writes ⊆ (wr0.map (Proc.devRef (τ := τ) .tc)).toFinset) ∧
    ((hostOps1 (F := Ideal)).Forall fun op => op.writes ⊆ (wr1.map (Proc.devRef (τ := τ) .tc)).toFinset) ∧
    ((hostOps1_1 (F := Ideal)).Forall fun op => op.writes ⊆ (wr1_1.map (Proc.devRef (τ := τ) .tc)).toFinset) ∧
    ((hostOps1_2 (F := Ideal)).Forall fun op => op.writes ⊆ (wr1_2.map (Proc.devRef (τ := τ) .tc)).toFinset) ∧
    ((hostOps2 (F := Ideal)).Forall fun op => op.writes ⊆ (wr2.map (Proc.devRef (τ := τ) .tc)).toFinset) := by
  refine ⟨?_, ?_, ?_, ?_, ?_⟩ <;>
    simp only [hostOps0, hostOps1, hostOps1_1, hostOps1_2, hostOps2, wr0, wr1, wr1_1, wr1_2, wr2, List.Forall, StableHlo.nullary_writes,
      StableHlo.unary_writes, StableHlo.binary_writes, StableHlo.ternary_writes, StableHlo.reshape_writes, Finset.singleton_subset_iff,
      List.mem_toFinset, List.map_cons, List.map_nil, List.mem_cons, true_or, or_true, and_self]

/-- What no operation before the first launch writes holds its launch contents when that launch begins. -/
theorem W1_launch (c : Dev nD) (r : Ref sig .tc) (h0 : r ∉ wr0) :
    W1 (F := Ideal) m ρ c (Proc.devRef .tc r) = m ((c : Thread nD τ).loc r) :=
  StableHlo.after_of_writes_sub _ _ wr_subs.1 h0

theorem W2_launch (c : Dev nD) (r : Ref sig .tc) (a0 : ∀ w, Pipeline.arrRef spec0 w ≠ r) (h0 : r ∉ wr0) :
    W2 (F := Ideal) m ρ c (Proc.devRef .tc r) = m ((c : Thread nD τ).loc r) :=
  (W2_of_ne m ρ c r a0).trans (W1_launch m ρ c r h0)

/-- `r` is no array of the first two launches and nothing between them writes it. -/
abbrev Kept6 (r : Ref sig .tc) : Prop :=
  (∀ w, Pipeline.arrRef spec0 w ≠ r) ∧ (∀ w, Pipeline.arrRef spec1 w ≠ r) ∧ r ∉ wr1 ∧ r ∉ wr1_1 ∧ r ∉ wr1_2

/-- Such a buffer holds after the second launch what the first launch found. -/
theorem kept6 (c : Dev nD) (r : Ref sig .tc) (h : Kept6 r) : W6 (F := Ideal) m ρ c (Proc.devRef .tc r) = W1 (F := Ideal) m ρ c (Proc.devRef .tc r) :=
  calc W6 (F := Ideal) m ρ c (Proc.devRef .tc r)
    _ = W5 (F := Ideal) m ρ c (Proc.devRef .tc r) := W6_of_ne m ρ c r h.2.1
    _ = W4 (F := Ideal) m ρ c (Proc.devRef .tc r) := StableHlo.after_of_writes_sub _ _ wr_subs.2.2.2.1 h.2.2.2.2
    _ = W3 (F := Ideal) m ρ c (Proc.devRef .tc r) := StableHlo.after_of_writes_sub _ _ wr_subs.2.2.1 h.2.2.2.1
    _ = W2 (F := Ideal) m ρ c (Proc.devRef .tc r) := StableHlo.after_of_writes_sub _ _ wr_subs.2.1 h.2.2.1
    _ = W1 (F := Ideal) m ρ c (Proc.devRef .tc r) := W2_of_ne m ρ c r h.1

/-- Likewise through the third launch. -/
theorem kept8 (c : Dev nD) (r : Ref sig .tc) (h : Kept6 r ∧ (∀ w, Pipeline.arrRef spec2 w ≠ r) ∧ r ∉ wr2) : W8 (F := Ideal) m ρ c (Proc.devRef .tc r) = W1 (F := Ideal) m ρ c (Proc.devRef .tc r) :=
  calc W8 (F := Ideal) m ρ c (Proc.devRef .tc r)
    _ = W7 (F := Ideal) m ρ c (Proc.devRef .tc r) := W8_of_ne m ρ c r h.2.1
    _ = W6 (F := Ideal) m ρ c (Proc.devRef .tc r) := StableHlo.after_of_writes_sub _ _ wr_subs.2.2.2.2 h.2.2
    _ = W1 (F := Ideal) m ρ c (Proc.devRef .tc r) := kept6 m ρ c r h.1

set_option maxHeartbeats 2000000 in
theorem W1_v3 (c : Dev nD) : (W1 (F := Ideal) m ρ c (Proc.devRef .tc main_v3) : S800000.Idx → BitVec 32) = dstRow (eiA m c) := by
  show (StableHlo.after hostOps0 (W0 (F := Ideal) m ρ c) (Proc.devRef .tc main_v3) : S800000.Idx → BitVec 32) = _
  after_results_simp
  rfl

def nwTerm (nW : S2x96x64.Idx → EReal) : S96x128.Idx → EReal :=
  concatenate S96x128 1
    [⟨S96x64, shapeCast S96x64 (extractStridedSlice S1x96x64 ![0, 0, 0] nW slices_S2x96x64_S1x96x64_0_0_0) shapeCasts_S1x96x64_S96x64⟩,
      ⟨S96x64, shapeCast S96x64 (extractStridedSlice S1x96x64 ![1, 0, 0] nW slices_S2x96x64_S1x96x64_1_0_0) shapeCasts_S1x96x64_S96x64⟩]
    concatenates_S96x64_S96x64_S96x128_d1

def nbTerm (nb : S2x64.Idx → EReal) : S1x128.Idx → EReal :=
  shapeCast S1x128
    (concatenate S128 0
      [⟨S64, shapeCast S64 (extractStridedSlice S1x64 ![0, 0] nb slices_S2x64_S1x64_0_0) shapeCasts_S1x64_S64⟩,
        ⟨S64, shapeCast S64 (extractStridedSlice S1x64 ![1, 0] nb slices_S2x64_S1x64_1_0) shapeCasts_S1x64_S64⟩]
      concatenates_S64_S64_S128_d0)
    shapeCasts_S128_S1x128

set_option maxHeartbeats 2000000 in
theorem after_v36 (Vv : Valuation τ sig (Elt Ideal)) :
    (StableHlo.after hostOps1_2 (StableHlo.after hostOps1_1 (StableHlo.after hostOps1 Vv)) (Proc.devRef .tc main_v36) : S50000x96.Idx → EReal)
      = hidTerm (Vv (Proc.devRef .tc main_v3)) (Vv (Proc.devRef .tc main_v24)) (Vv (Proc.devRef .tc main_arg2)) := by
  after_results_simp
  rfl

set_option maxHeartbeats 2000000 in
theorem after_v37 (Vv : Valuation τ sig (Elt Ideal)) :
    (StableHlo.after hostOps1_2 (StableHlo.after hostOps1_1 (StableHlo.after hostOps1 Vv)) (Proc.devRef .tc main_v37) : S50000x1.Idx → BitVec 32)
      = shapeCast S50000x1 (Vv (Proc.devRef .tc main_arg3) : S50000.Idx → BitVec 32) shapeCasts_S50000_S50000x1 := by
  after_results_simp
  rfl

set_option maxHeartbeats 2000000 in
theorem after_v42 (Vv : Valuation τ sig (Elt Ideal)) :
    (StableHlo.after hostOps1_2 (StableHlo.after hostOps1_1 (StableHlo.after hostOps1 Vv)) (Proc.devRef .tc main_v42) : S96x128.Idx → EReal)
      = nwTerm (Vv (Proc.devRef .tc main_arg6)) := by
  after_results_simp
  rfl

set_option maxHeartbeats 2000000 in
theorem after_v48 (Vv : Valuation τ sig (Elt Ideal)) :
    (StableHlo.after hostOps1_2 (StableHlo.after hostOps1_1 (StableHlo.after hostOps1 Vv)) (Proc.devRef .tc main_v48) : S1x128.Idx → EReal)
      = nbTerm (Vv (Proc.devRef .tc main_arg7)) := by
  after_results_simp
  rfl

theorem h_apply (c : Dev nD) (n : Fin 50000) (k : Fin 96) :
    hA m ρ c (ix2 n k)
      = Ideal.div (Cert.Gnn.agg (fun e => eiA m c (ix2 (1 : Fin 2) e)) (fun e => msgA m ρ c (ix2 e k)) n)
          (max (Cert.Gnn.agg (fun e => eiA m c (ix2 (1 : Fin 2) e))
            (fun e => Cert.Gnn.ind (etA m c (ix1 e)) (BitVec.ofNat 32 (k.val / 32))) n) Cert.Gnn.fone) := by
  refine (congrFun (after_v36 (W2 (F := Ideal) m ρ c)) _).trans ?_
  rw [(W2_of_ne m ρ c main_v3 (by decide)).trans (W1_v3 m ρ c), W2_launch m ρ c main_arg2 (by decide) (by decide), hidTerm_at]
  simp only [dst_at]

theorem nt_apply (c : Dev nD) (n : Fin 50000) : ntcA m ρ c (ix2 n (0 : Fin 1)) = ntA m c (ix1 n) := by
  refine (congrFun (after_v37 (W2 (F := Ideal) m ρ c)) _).trans ?_
  rw [W2_launch m ρ c main_arg3 (by decide) (by decide)]
  exact colCast_at _ _ n

theorem w_lo (c : Dev nD) (k : Fin 96) (j : Fin 64) :
    wA m ρ c (ix2 k (NodeValue1.lo j)) = nWA m c (ix3 (0 : Fin 2) k j) := by
  refine (congrFun (after_v42 (W2 (F := Ideal) m ρ c)) _).trans ?_
  rw [W2_launch m ρ c main_arg6 (by decide) (by decide)]
  exact (catCols_lo _ _ _ k j _).trans (pairMat_at _ 0 _ rfl _ _ k j)

theorem w_hi (c : Dev nD) (k : Fin 96) (j : Fin 64) :
    wA m ρ c (ix2 k (NodeValue1.hi j)) = nWA m c (ix3 (1 : Fin 2) k j) := by
  refine (congrFun (after_v42 (W2 (F := Ideal) m ρ c)) _).trans ?_
  rw [W2_launch m ρ c main_arg6 (by decide) (by decide)]
  exact (catCols_hi _ _ _ k j _).trans (pairMat_at _ 1 _ rfl _ _ k j)

theorem b_lo (c : Dev nD) (j : Fin 64) :
    bA m ρ c (ix2 (0 : Fin 1) (NodeValue1.lo j)) = nbA m c (ix2 (0 : Fin 2) j) := by
  refine (congrFun (after_v48 (W2 (F := Ideal) m ρ c)) _).trans ?_
  rw [W2_launch m ρ c main_arg7 (by decide) (by decide)]
  exact (shapeCast_a_1a_apply _ _ 0 _).trans ((catVec_lo _ _ _ j _).trans (pairRow_at _ 0 _ rfl _ _ j))

theorem b_hi (c : Dev nD) (j : Fin 64) :
    bA m ρ c (ix2 (0 : Fin 1) (NodeValue1.hi j)) = nbA m c (ix2 (1 : Fin 2) j) := by
  refine (congrFun (after_v48 (W2 (F := Ideal) m ρ c)) _).trans ?_
  rw [W2_launch m ρ c main_arg7 (by decide) (by decide)]
  exact (shapeCast_a_1a_apply _ _ 0 _).trans ((catVec_hi _ _ _ j _).trans (pairRow_at _ 1 _ rfl _ _ j))

end Cert.KernelIdeal.KHost0b

end
-- ==== Proof.KLayer0.lean ====
import proofs.«420892_j79345225826944_1_alg».proof.Proof.Gen.KernelIdeal.Frame
import proofs.«420892_j79345225826944_1_alg».proof.Proof.LayerSpec
import proofs.«420892_j79345225826944_1_alg».proof.Proof.EdgeValue0
import proofs.«420892_j79345225826944_1_alg».proof.Proof.NodeValue1
import proofs.«420892_j79345225826944_1_alg».proof.Proof.KHost0b
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

namespace Cert.KernelIdeal.KLayer0

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

abbrev nfA (c : Dev nD) : S50000x128.Idx → EReal := m ((c : Thread nD τ).loc main_arg0)
abbrev eiA (c : Dev nD) : S2x800000.Idx → BitVec 32 := m ((c : Thread nD τ).loc main_arg1)
abbrev etA (c : Dev nD) : S800000.Idx → BitVec 32 := m ((c : Thread nD τ).loc main_arg2)
abbrev ntA (c : Dev nD) : S50000.Idx → BitVec 32 := m ((c : Thread nD τ).loc main_arg3)
abbrev eWA (c : Dev nD) : S3x256x32.Idx → EReal := m ((c : Thread nD τ).loc main_arg4)
abbrev ebA (c : Dev nD) : S3x32.Idx → EReal := m ((c : Thread nD τ).loc main_arg5)
abbrev nWA (c : Dev nD) : S2x96x64.Idx → EReal := m ((c : Thread nD τ).loc main_arg6)
abbrev nbA (c : Dev nD) : S2x64.Idx → EReal := m ((c : Thread nD τ).loc main_arg7)

abbrev featA (c : Dev nD) : S800000x256.Idx → EReal := W1 (F := Ideal) m ρ c (Proc.devRef .tc main_v19)
abbrev outA (c : Dev nD) : S50000x64.Idx → EReal := W6 (F := Ideal) m ρ c (Proc.devRef .tc main_v49)

def featTerm (x0 : S50000x128.Idx → EReal) (x1 : S2x800000.Idx → BitVec 32) : S800000x256.Idx → EReal :=
  concatenate S800000x256 1
    [⟨S800000x128,
        (Host.gather gather_S50000x128_S800000x1_S800000x128_1_0_n_n_0_1_1128
          (truncf .bf16 (x0 : FVec Ideal S50000x128 .f32) bitsLt_bf16_f32 : FVec Ideal S50000x128 .bf16)
          (broadcastInDim S800000x1 ![0] bcast_S800000_S800000x1_0
            (select
              (cmpi .slt
                (shapeCast S800000 (extractStridedSlice S1x800000 ![0, 0] x1 slices_S2x800000_S1x800000_0_0) shapeCasts_S1x800000_S800000)
                (broadcastInDim S800000 ![] bcast_S_S800000 (constantI S_ 32 0#32)))
              (addi
                (shapeCast S800000 (extractStridedSlice S1x800000 ![0, 0] x1 slices_S2x800000_S1x800000_0_0) shapeCasts_S1x800000_S800000)
                (broadcastInDim S800000 ![] bcast_S_S800000 (constantI S_ 32 50000#32)))
              (shapeCast S800000 (extractStridedSlice S1x800000 ![0, 0] x1 slices_S2x800000_S1x800000_0_0) shapeCasts_S1x800000_S800000)))
          : S800000x128.Idx → EReal)⟩,
      ⟨S800000x128,
        (Host.gather gather_S50000x128_S800000x1_S800000x128_1_0_n_n_0_1_1128
          (truncf .bf16 (x0 : FVec Ideal S50000x128 .f32) bitsLt_bf16_f32 : FVec Ideal S50000x128 .bf16)
          (broadcastInDim S800000x1 ![0] bcast_S800000_S800000x1_0
            (select
              (cmpi .slt
                (shapeCast S800000 (extractStridedSlice S1x800000 ![1, 0] x1 slices_S2x800000_S1x800000_1_0) shapeCasts_S1x800000_S800000)
                (broadcastInDim S800000 ![] bcast_S_S800000 (constantI S_ 32 0#32)))
              (addi
                (shapeCast S800000 (extractStridedSlice S1x800000 ![1, 0] x1 slices_S2x800000_S1x800000_1_0) shapeCasts_S1x800000_S800000)
                (broadcastInDim S800000 ![] bcast_S_S800000 (constantI S_ 32 50000#32)))
              (shapeCast S800000 (extractStridedSlice S1x800000 ![1, 0] x1 slices_S2x800000_S1x800000_1_0) shapeCasts_S1x800000_S800000)))
          : S800000x128.Idx → EReal)⟩]
    concatenates_S800000x128_S800000x128_S800000x256_d1

theorem feat_eq (c : Dev nD) : featA m ρ c = featTerm (nfA m c) (eiA m c) := by
  show StableHlo.after hostOps0 _ (Proc.devRef .tc main_v19) = _
  after_results_simp
  rfl

theorem v20_eq (c : Dev nD) :
    (W1 (F := Ideal) m ρ c (Proc.devRef .tc main_v20) : S800000x1.Idx → BitVec 32)
      = shapeCast S800000x1 (etA m c) shapeCasts_S800000_S800000x1 := by
  show StableHlo.after hostOps0 _ (Proc.devRef .tc main_v20) = _
  after_results_simp
  rfl
theorem v22_eq (c : Dev nD) :
    (W1 (F := Ideal) m ρ c (Proc.devRef .tc main_v22) : S256x96.Idx → EReal)
      = shapeCast S256x96 (transpose S256x3x32 [1, 0, 2] (eWA m c) transposes_S3x256x32_S256x3x32_1_0_2) shapeCasts_S256x3x32_S256x96 := by
  show StableHlo.after hostOps0 _ (Proc.devRef .tc main_v22) = _
  after_results_simp
  rfl
theorem v23_eq (c : Dev nD) :
    (W1 (F := Ideal) m ρ c (Proc.devRef .tc main_v23) : S1x96.Idx → EReal)
      = shapeCast S1x96 (ebA m c) shapeCasts_S3x32_S1x96 := by
  show StableHlo.after hostOps0 _ (Proc.devRef .tc main_v23) = _
  after_results_simp
  rfl

theorem msg_apply (c : Dev nD) (e : Fin 800000) (k : Fin 96) :
    KHost0b.msgA m ρ c (ix2 e k)
      = Cert.Gnn.msg (fun e k => featA m ρ c (ix2 e k)) (fun e => etA m c (ix1 e)) (fun t k q => eWA m c (ix3 t k q))
          (fun t q => ebA m c (ix2 t q)) e (Cert.Gnn.tyOf k) (Cert.Gnn.unitOf k) := by
  have h0 : KHost0b.msgA m ρ c = EdgeValue0.outA (V1 m ρ) c := W2_arr m ρ c 4
  refine (congrFun h0 (ix2 e k)).trans ((EdgeValue0.value (V1 m ρ) c e k).trans ?_)
  unfold Cert.Gnn.msg
  have hw : ∀ k' : Fin 256, EdgeValue0.wA (V1 m ρ) c (ix2 k' k) = eWA m c (ix3 (Cert.Gnn.tyOf k) k' (Cert.Gnn.unitOf k)) := fun k' =>
    (congrFun (v22_eq m ρ c) (ix2 k' k)).trans (KHost0b.typeCols_at (eWA m c) _ _ k' k)
  have hb : EdgeValue0.bA (V1 m ρ) c (ix2 (0 : Fin 1) k) = ebA m c (ix2 (Cert.Gnn.tyOf k) (Cert.Gnn.unitOf k)) :=
    (congrFun (v23_eq m ρ c) (ix2 (0 : Fin 1) k)).trans (KHost0b.typeRow_at (ebA m c) k)
  have ht : EdgeValue0.etA (V1 m ρ) c (ix2 e (0 : Fin 1)) = etA m c (ix1 e) :=
    (congrFun (v20_eq m ρ c) (ix2 e (0 : Fin 1))).trans (KHost0b.colCast_at (etA m c) _ e)
  refine congrArg₂ (· * ·) (congrArg₂ max (congrArg₂ (· + ·) (Finset.sum_congr rfl fun k' _ => ?_) hb) rfl) (congrArg₂ Cert.Gnn.ind ht rfl)
  exact congrArg (fun x => featA m ρ c (ix2 e k') * x) (hw k')

theorem hid_apply (c : Dev nD) (n : Fin 50000) (k : Fin 96) :
    KHost0b.hA m ρ c (ix2 n k)
      = Cert.Gnn.hid (fun e k => featA m ρ c (ix2 e k)) (fun e => etA m c (ix1 e)) (fun e => eiA m c (ix2 (1 : Fin 2) e))
          (fun t k q => eWA m c (ix3 t k q)) (fun t q => ebA m c (ix2 t q)) n (Cert.Gnn.tyOf k) (Cert.Gnn.unitOf k) := by
  refine (KHost0b.h_apply m ρ c n k).trans ?_
  unfold Cert.Gnn.hid
  refine congrArg₂ Ideal.div ?_ rfl
  exact congrArg (fun f => Cert.Gnn.agg (fun e => eiA m c (ix2 (1 : Fin 2) e)) f n) (funext fun e => msg_apply m ρ c e k)

theorem value (c : Dev nD) (n : Fin 50000) (j : Fin 64) :
    outA m ρ c (ix2 n j)
      = Cert.Gnn.layerMasked (fun e k => featA m ρ c (ix2 e k)) (fun e => etA m c (ix1 e)) (fun e => eiA m c (ix2 (1 : Fin 2) e))
          (fun n => ntA m c (ix1 n)) (fun t k q => eWA m c (ix3 t k q)) (fun t q => ebA m c (ix2 t q))
          (fun u k j => nWA m c (ix3 u k j)) (fun u j => nbA m c (ix2 u j)) n j := by
  have h1 : outA m ρ c = NodeValue1.outA (V5 m ρ) c := W6_arr m ρ c 4
  refine (congrFun h1 (ix2 n j)).trans ((NodeValue1.value (V5 m ρ) c n j).trans ?_)
  unfold Cert.Gnn.layerMasked Cert.Gnn.upd
  refine congrArg₂ (· + ·)
    (congrArg₂ (· * ·)
      (congrArg₂ max (congrArg₂ (· + ·) (Finset.sum_congr rfl fun k _ => ?_) (KHost0b.b_lo m ρ c j)) rfl)
      (congrArg₂ Cert.Gnn.ind (KHost0b.nt_apply m ρ c n) rfl))
    (congrArg₂ (· * ·)
      (congrArg₂ max (congrArg₂ (· + ·) (Finset.sum_congr rfl fun k _ => ?_) (KHost0b.b_hi m ρ c j)) rfl)
      (congrArg₂ Cert.Gnn.ind (KHost0b.nt_apply m ρ c n) rfl))
  · exact congrArg₂ (· * ·) (hid_apply m ρ c n k) (KHost0b.w_lo m ρ c k j)
  · exact congrArg₂ (· * ·) (hid_apply m ρ c n k) (KHost0b.w_hi m ρ c k j)

end Cert.KernelIdeal.KLayer0

end
-- ==== Proof.EdgeValue2.lean ====
import proofs.«420892_j79345225826944_1_alg».proof.Proof.BlockValue

noncomputable section

namespace Cert.KernelIdeal.EdgeValue2

open Idealize.ShloMosaic Idealize.ShloMosaic.TcCoe Idealize.ShloMosaic.ValueIdx Idealize.SL.Sem
open Cert.KernelIdeal Cert.KernelIdeal.Gen Cert.KernelIdeal.BlockValue
open Idealize.ShloMosaic.Pipeline (Dat Cfg Window)

variable (V : (c : Dev nD) → (b : Ref sig .tc) → Buf (Elt Ideal) ((c : Thread nD τ).loc b))

abbrev featA (c : Dev nD) : S800000x128.Idx → EReal := V c main_v65
abbrev etA (c : Dev nD) : S800000x1.Idx → BitVec 32 := V c main_v66
abbrev wA (c : Dev nD) : S128x96.Idx → EReal := V c main_v68
abbrev bA (c : Dev nD) : S1x96.Idx → EReal := V c main_v69
abbrev outA (c : Dev nD) : S800000x96.Idx → EReal := (dat2 (F := Ideal) V c).arrAt 4 cfg2.N

/-- Which block of each array grid point t takes, axis by axis. -/
theorem block_index : ∀ t : Fin cfg2.N, (win2_0.rect t).off = ![t.val * 8000, 0] ∧ (win2_1.rect t).off = ![t.val * 8000, 0]
    ∧ (win2_2.rect t).off = ![0, 0] ∧ (win2_3.rect t).off = ![0, 0] ∧ (win2_4.rect t).off = ![t.val * 8000, 0] ∧ t.val < 100 :=
  (by decide +kernel : ∀ t : Fin grid2.N, _)

/-- Row p of point t's feature, type and result blocks is row e = 8000 t + p of the arrays; its weight and bias blocks are the whole arrays. -/
theorem emb_at (t : Fin cfg2.N) (p : Fin 8000) (e : Fin 800000) (he : e.val = t.val * 8000 + p.val) :
    (∀ k : Fin 128, ((cfg2.win 0).blk t).view.emb (ix2 p k) = (ix2 e k : S800000x128.Idx))
    ∧ ((cfg2.win 1).blk t).view.emb (ix2 p (0 : Fin 1)) = (ix2 e (0 : Fin 1) : S800000x1.Idx)
    ∧ (∀ (k : Fin 128) (q : Fin 96), ((cfg2.win 2).blk t).view.emb (ix2 k q) = (ix2 k q : S128x96.Idx))
    ∧ (∀ q : Fin 96, ((cfg2.win 3).blk t).view.emb (ix2 (0 : Fin 1) q) = (ix2 (0 : Fin 1) q : S1x96.Idx))
    ∧ ∀ q : Fin 96, ((cfg2.win 4).blk t).view.emb (ix2 p q) = (ix2 e q : S800000x96.Idx) := by
  obtain ⟨a, b, c, d, o, -⟩ := block_index t
  exact ⟨fun k => unit_emb _ a p k e k he rfl, unit_emb _ b p 0 e 0 he rfl, fun k q => unit_emb 0 c k q k q (Nat.zero_add _).symm rfl,
    fun q => unit_emb 0 d 0 q 0 q rfl rfl, fun q => unit_emb _ o p q e q he rfl⟩

/-- What point t writes is its block of edgeOut of the four arrays. -/
theorem written_eq (c : Dev nD) (t : Fin cfg2.N) :
    (dat2 (F := Ideal) V c).flushed 4 t
      = ((cfg2.win 4).blk t).view.read (Elt Ideal) (edgeOut (featA V c) (etA V c) (wA V c) (bA V c)) := by
  show (cfg2.win 4).cut (grid2.coords t) ((dat2 (F := Ideal) V c).after 4 t) = _
  rw [after2_4]
  unfold out2_4 k2_pay2
  rw [View.canon_unit_zero zero2]
  simp only [View.ld_unit_zero (S := S8000x128) zero2, View.ld_unit_zero (S := S8000x1) zero2,
    View.ld_unit_zero (S := S128x96) zero2, View.ld_unit_zero (S := S1x96) zero2]
  rw [shapeCast_self, shapeCast_self, shapeCast_self]
  funext j
  obtain ⟨p, q, rfl⟩ : ∃ (p : Fin 8000) (q : Fin 96), j = ix2 p q := ⟨j 0, j 1, eq_ix2 j⟩
  have ht := (block_index t).2.2.2.2.2
  obtain ⟨h0, h1, h2, h3, h4⟩ := emb_at t p ⟨t.val * 8000 + p.val, by omega⟩ rfl
  show _ = edgeOut _ _ _ _ (((cfg2.win 4).blk t).view.emb (ix2 p q))
  rw [h4]
  exact congrArg₂ (· * ·)
    (act_at _ _ _ _ p q (featA V c) (wA V c) (bA V c) _ (fun k => congrArg (featA V c) (h0 k)) (fun k => congrArg (wA V c) (h2 k q))
      (congrArg (bA V c) (h3 q)))
    (edge_mask _ p q (etA V c) _ (congrArg (etA V c) h1))

/-- Entry (e, q) of the result lies in the block of point e / 8000. -/
theorem rows_covered (i : S800000x96.Idx) : ∃ t : Fin cfg2.N, (cfg2.win 4).flush t = true ∧ i ∈ ((cfg2.win 4).blk t).view.set := by
  obtain ⟨e, q, rfl⟩ : ∃ (e : Fin 800000) (q : Fin 96), i = ix2 e q := ⟨i 0, i 1, eq_ix2 i⟩
  let t : Fin cfg2.N := ⟨e.val / 8000, lt_of_lt_of_eq (by omega) N_2.symm⟩
  refine ⟨t, flush2_4 t, ?_⟩
  rw [← (emb_at t ⟨e.val % 8000, Nat.mod_lt _ (by decide)⟩ e (Nat.div_add_mod' e.val 8000).symm).2.2.2.2 q]
  exact View.emb_mem_set _ _

theorem whole (c : Dev nD) : outA V c = edgeOut (featA V c) (etA V c) (wA V c) (bA V c) :=
  (dat2 (F := Ideal) V c).arrAt_eq_of_cover 4 _ (fun t _ => written_eq V c t) rows_covered

theorem value (c : Dev nD) (e : Fin 800000) (col : Fin 96) :
    outA V c (ix2 e col)
      = max ((∑ k : Fin 128, featA V c (ix2 e k) * wA V c (ix2 k col)) + bA V c (ix2 (0 : Fin 1) col)) Cert.Gnn.fz
          * Cert.Gnn.ind (etA V c (ix2 e (0 : Fin 1))) (BitVec.ofNat 32 (col.val / 32)) :=
  congrFun (whole V c) (ix2 e col)

end Cert.KernelIdeal.EdgeValue2

end
-- ==== Proof.NodeValue3.lean ====
import proofs.«420892_j79345225826944_1_alg».proof.Proof.BlockValue

noncomputable section

namespace Cert.KernelIdeal.NodeValue3

open Idealize.ShloMosaic Idealize.ShloMosaic.TcCoe Idealize.ShloMosaic.ValueIdx Idealize.SL.Sem
open Cert.KernelIdeal Cert.KernelIdeal.Gen Cert.KernelIdeal.BlockValue
open Idealize.ShloMosaic.Pipeline (Dat Cfg Window)

variable (V : (c : Dev nD) → (b : Ref sig .tc) → Buf (Elt Ideal) ((c : Thread nD τ).loc b))

abbrev hA (c : Dev nD) : S50000x96.Idx → EReal := V c main_v82
abbrev ntA (c : Dev nD) : S50000x1.Idx → BitVec 32 := V c main_v83
abbrev wA (c : Dev nD) : S96x256.Idx → EReal := V c main_v88
abbrev bA (c : Dev nD) : S1x256.Idx → EReal := V c main_v94
abbrev outA (c : Dev nD) : S50000x128.Idx → EReal := (dat3 (F := Ideal) V c).arrAt 4 cfg3.N

abbrev lo (j : Fin 128) : Fin 256 := ⟨j.val, by omega⟩
abbrev hi (j : Fin 128) : Fin 256 := ⟨j.val + 128, by omega⟩

/-- Which block of each array grid point t takes, axis by axis. -/
theorem idx_facts : ∀ t : Fin cfg3.N, (win3_0.rect t).off = ![t.val * 5000, 0] ∧ (win3_1.rect t).off = ![t.val * 5000, 0]
    ∧ (win3_2.rect t).off = ![0, 0] ∧ (win3_3.rect t).off = ![0, 0] ∧ (win3_4.rect t).off = ![t.val * 5000, 0] ∧ t.val < 10 :=
  (by decide +kernel : ∀ t : Fin grid3.N, _)

/-- Row p of point t's hidden, type and result blocks is row n = 5000 t + p of the arrays; its weight and bias blocks are the whole arrays. -/
theorem emb_at (t : Fin cfg3.N) (p : Fin 5000) (n : Fin 50000) (hn : n.val = t.val * 5000 + p.val) :
    (∀ k : Fin 96, ((cfg3.win 0).blk t).view.emb (ix2 p k) = (ix2 n k : S50000x96.Idx))
    ∧ ((cfg3.win 1).blk t).view.emb (ix2 p (0 : Fin 1)) = (ix2 n (0 : Fin 1) : S50000x1.Idx)
    ∧ (∀ (k : Fin 96) (q : Fin 256), ((cfg3.win 2).blk t).view.emb (ix2 k q) = (ix2 k q : S96x256.Idx))
    ∧ (∀ q : Fin 256, ((cfg3.win 3).blk t).view.emb (ix2 (0 : Fin 1) q) = (ix2 (0 : Fin 1) q : S1x256.Idx))
    ∧ ∀ j : Fin 128, ((cfg3.win 4).blk t).view.emb (ix2 p j) = (ix2 n j : S50000x128.Idx) := by
  obtain ⟨a, b, c, d, o, -⟩ := idx_facts t
  exact ⟨fun k => unit_emb _ a p k n k hn rfl, unit_emb _ b p 0 n 0 hn rfl, fun k q => unit_emb 0 c k q k q (Nat.zero_add _).symm rfl,
    fun q => unit_emb 0 d 0 q 0 q rfl rfl, fun j => unit_emb _ o p j n j hn rfl⟩

/-- What point t writes is its block of nodeOut of the four arrays. -/
theorem flushed_eq (c : Dev nD) (t : Fin cfg3.N) :
    (dat3 (F := Ideal) V c).flushed 4 t
      = ((cfg3.win 4).blk t).view.read (Elt Ideal) (nodeOut lo hi (hA V c) (ntA V c) (wA V c) (bA V c)) := by
  show (cfg3.win 4).cut (grid3.coords t) ((dat3 (F := Ideal) V c).after 4 t) = _
  rw [after3_4]
  unfold out3_4 k3_pay1
  rw [View.canon_unit_zero zero2]
  simp only [View.ld_unit_zero (S := S5000x96) zero2, View.ld_unit_zero (S := S5000x1) zero2, View.ld_unit_zero (S := S96x256) zero2,
    View.ld_unit_zero (S := S1x256) zero2]
  rw [shapeCast_self, shapeCast_self, shapeCast_self, shapeCast_self]
  funext y
  obtain ⟨p, j, rfl⟩ : ∃ (p : Fin 5000) (j : Fin 128), y = ix2 p j := ⟨y 0, y 1, eq_ix2 y⟩
  have ht := (idx_facts t).2.2.2.2.2
  obtain ⟨h0, h1, h2, h3, h4⟩ := emb_at t p ⟨t.val * 5000 + p.val, by omega⟩ rfl
  show _ = nodeOut lo hi _ _ _ _ (((cfg3.win 4).blk t).view.emb (ix2 p j))
  rw [h4]
  have e0 := fun k => congrArg (hA V c) (h0 k)
  have e1 := congrArg (ntA V c) h1
  exact congrArg₂ (· + ·)
    (congrArg₂ (· * ·) ((slice_col 0 _ _ p j (lo j) (Nat.zero_add _).symm).trans
      (act_at _ _ _ _ p (lo j) (hA V c) (wA V c) (bA V c) _ e0 (fun k => congrArg (wA V c) (h2 k _)) (congrArg (bA V c) (h3 _))))
      (mask_at _ _ _ 0#32 p j (ntA V c) _ e1))
    (congrArg₂ (· * ·) ((slice_col 128 _ _ p j (hi j) (Nat.add_comm _ _)).trans
      (act_at _ _ _ _ p (hi j) (hA V c) (wA V c) (bA V c) _ e0 (fun k => congrArg (wA V c) (h2 k _)) (congrArg (bA V c) (h3 _))))
      (mask_at _ _ _ 1#32 p j (ntA V c) _ e1))

/-- Entry (n, j) of the result lies in the block of point n / 5000. -/
theorem cover (i : S50000x128.Idx) : ∃ t : Fin cfg3.N, (cfg3.win 4).flush t = true ∧ i ∈ ((cfg3.win 4).blk t).view.set := by
  obtain ⟨n, j, rfl⟩ : ∃ (n : Fin 50000) (j : Fin 128), i = ix2 n j := ⟨i 0, i 1, eq_ix2 i⟩
  let t : Fin cfg3.N := ⟨n.val / 5000, lt_of_lt_of_eq (by omega) N_3.symm⟩
  refine ⟨t, flush3_4 t, ?_⟩
  rw [← (emb_at t ⟨n.val % 5000, Nat.mod_lt _ (by decide)⟩ n (Nat.div_add_mod' n.val 5000).symm).2.2.2.2 j]
  exact View.emb_mem_set _ _

theorem array_eq (c : Dev nD) : outA V c = nodeOut lo hi (hA V c) (ntA V c) (wA V c) (bA V c) :=
  (dat3 (F := Ideal) V c).arrAt_eq_of_cover 4 _ (fun t _ => flushed_eq V c t) cover

theorem value (c : Dev nD) (n : Fin 50000) (j : Fin 128) :
    outA V c (ix2 n j)
      = max ((∑ k : Fin 96, hA V c (ix2 n k) * wA V c (ix2 k (lo j))) + bA V c (ix2 (0 : Fin 1) (lo j))) Cert.Gnn.fz
            * Cert.Gnn.ind (ntA V c (ix2 n (0 : Fin 1))) 0#32
        + max ((∑ k : Fin 96, hA V c (ix2 n k) * wA V c (ix2 k (hi j))) + bA V c (ix2 (0 : Fin 1) (hi j))) Cert.Gnn.fz
            * Cert.Gnn.ind (ntA V c (ix2 n (0 : Fin 1))) 1#32 :=
  congrFun (array_eq V c) (ix2 n j)

end Cert.KernelIdeal.NodeValue3

end
-- ==== Proof.KHost1b.lean ====
import proofs.«420892_j79345225826944_1_alg».proof.Proof.Gen.KernelIdeal.Frame
import proofs.«420892_j79345225826944_1_alg».proof.Proof.LayerSpec
import proofs.«420892_j79345225826944_1_alg».proof.Proof.NodeValue3
import proofs.«420892_j79345225826944_1_alg».proof.Proof.KHost0b
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

namespace Cert.KernelIdeal.KHost1b

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

abbrev eiA (c : Dev nD) : S2x800000.Idx → BitVec 32 := m ((c : Thread nD τ).loc main_arg1)
abbrev etA (c : Dev nD) : S800000.Idx → BitVec 32 := m ((c : Thread nD τ).loc main_arg2)
abbrev ntA (c : Dev nD) : S50000.Idx → BitVec 32 := m ((c : Thread nD τ).loc main_arg3)
abbrev nWA (c : Dev nD) : S2x96x128.Idx → EReal := m ((c : Thread nD τ).loc main_arg10)
abbrev nbA (c : Dev nD) : S2x128.Idx → EReal := m ((c : Thread nD τ).loc main_arg11)

abbrev msgA (c : Dev nD) : S800000x96.Idx → EReal := W8 (F := Ideal) m ρ c (Proc.devRef .tc main_v70)
abbrev hA (c : Dev nD) : S50000x96.Idx → EReal := W11 (F := Ideal) m ρ c (Proc.devRef .tc main_v82)
abbrev ntcA (c : Dev nD) : S50000x1.Idx → BitVec 32 := W11 (F := Ideal) m ρ c (Proc.devRef .tc main_v83)
abbrev wA (c : Dev nD) : S96x256.Idx → EReal := W11 (F := Ideal) m ρ c (Proc.devRef .tc main_v88)
abbrev bA (c : Dev nD) : S1x256.Idx → EReal := W11 (F := Ideal) m ρ c (Proc.devRef .tc main_v94)

def weightsOf (nW : S2x96x128.Idx → EReal) : S96x256.Idx → EReal :=
  concatenate S96x256 1
    [⟨S96x128, shapeCast S96x128 (extractStridedSlice S1x96x128 ![0, 0, 0] nW slices_S2x96x128_S1x96x128_0_0_0) shapeCasts_S1x96x128_S96x128⟩,
     ⟨S96x128, shapeCast S96x128 (extractStridedSlice S1x96x128 ![1, 0, 0] nW slices_S2x96x128_S1x96x128_1_0_0) shapeCasts_S1x96x128_S96x128⟩]
    concatenates_S96x128_S96x128_S96x256_d1

def biasOf (nb : S2x128.Idx → EReal) : S1x256.Idx → EReal :=
  shapeCast S1x256
    (concatenate S256 0
      [⟨S128, shapeCast S128 (extractStridedSlice S1x128 ![0, 0] nb slices_S2x128_S1x128_0_0) shapeCasts_S1x128_S128⟩,
       ⟨S128, shapeCast S128 (extractStridedSlice S1x128 ![1, 0] nb slices_S2x128_S1x128_1_0) shapeCasts_S1x128_S128⟩]
      concatenates_S128_S128_S256_d0)
    shapeCasts_S256_S1x256

set_option maxHeartbeats 2000000 in
theorem stretch_h (Vv : Valuation τ sig (Elt Ideal)) :
    (StableHlo.after hostOps3_2 (StableHlo.after hostOps3_1 (StableHlo.after hostOps3 Vv)) (Proc.devRef .tc main_v82) : S50000x96.Idx → EReal)
      = KHost0b.hidTerm (Vv (Proc.devRef .tc main_v3)) (Vv (Proc.devRef .tc main_v70)) (Vv (Proc.devRef .tc main_arg2)) := by
  after_results_simp
  rfl

set_option maxHeartbeats 2000000 in
theorem stretch_nt (Vv : Valuation τ sig (Elt Ideal)) :
    (StableHlo.after hostOps3_2 (StableHlo.after hostOps3_1 (StableHlo.after hostOps3 Vv)) (Proc.devRef .tc main_v83) : S50000x1.Idx → BitVec 32)
      = shapeCast S50000x1 (Vv (Proc.devRef .tc main_arg3) : S50000.Idx → BitVec 32) shapeCasts_S50000_S50000x1 := by
  after_results_simp
  rfl

set_option maxHeartbeats 2000000 in
theorem stretch_w (Vv : Valuation τ sig (Elt Ideal)) :
    (StableHlo.after hostOps3_2 (StableHlo.after hostOps3_1 (StableHlo.after hostOps3 Vv)) (Proc.devRef .tc main_v88) : S96x256.Idx → EReal) = weightsOf (Vv (Proc.devRef .tc main_arg10)) := by
  after_results_simp
  rfl

set_option maxHeartbeats 2000000 in
theorem stretch_b (Vv : Valuation τ sig (Elt Ideal)) :
    (StableHlo.after hostOps3_2 (StableHlo.after hostOps3_1 (StableHlo.after hostOps3 Vv)) (Proc.devRef .tc main_v94) : S1x256.Idx → EReal) = biasOf (Vv (Proc.devRef .tc main_arg11)) := by
  after_results_simp
  rfl

theorem h_apply (c : Dev nD) (n : Fin 50000) (k : Fin 96) :
    hA m ρ c (ix2 n k)
      = Ideal.div (Cert.Gnn.agg (fun e => eiA m c (ix2 (1 : Fin 2) e)) (fun e => msgA m ρ c (ix2 e k)) n)
          (max (Cert.Gnn.agg (fun e => eiA m c (ix2 (1 : Fin 2) e))
            (fun e => Cert.Gnn.ind (etA m c (ix1 e)) (BitVec.ofNat 32 (k.val / 32))) n) Cert.Gnn.fone) := by
  refine (congrFun (stretch_h (W8 (F := Ideal) m ρ c)) _).trans ?_
  rw [(KHost0b.kept8 m ρ c main_v3 (by decide)).trans (KHost0b.W1_v3 m ρ c),
    (KHost0b.kept8 m ρ c main_arg2 (by decide)).trans (KHost0b.W1_launch m ρ c main_arg2 (by decide)), KHost0b.hidTerm_at]
  simp only [KHost0b.dst_at]

theorem nt_apply (c : Dev nD) (n : Fin 50000) : ntcA m ρ c (ix2 n (0 : Fin 1)) = ntA m c (ix1 n) := by
  refine (congrFun (stretch_nt (W8 (F := Ideal) m ρ c)) _).trans ?_
  rw [(KHost0b.kept8 m ρ c main_arg3 (by decide)).trans (KHost0b.W1_launch m ρ c main_arg3 (by decide))]
  exact KHost0b.colCast_at _ _ n

theorem w_lo (c : Dev nD) (k : Fin 96) (j : Fin 128) :
    wA m ρ c (ix2 k (NodeValue3.lo j)) = nWA m c (ix3 (0 : Fin 2) k j) := by
  refine (congrFun (stretch_w (W8 (F := Ideal) m ρ c)) _).trans ?_
  rw [(KHost0b.kept8 m ρ c main_arg10 (by decide)).trans (KHost0b.W1_launch m ρ c main_arg10 (by decide))]
  exact (KHost0b.catCols_lo _ _ _ k j _).trans (KHost0b.pairMat_at _ 0 _ rfl _ _ k j)

theorem w_hi (c : Dev nD) (k : Fin 96) (j : Fin 128) :
    wA m ρ c (ix2 k (NodeValue3.hi j)) = nWA m c (ix3 (1 : Fin 2) k j) := by
  refine (congrFun (stretch_w (W8 (F := Ideal) m ρ c)) _).trans ?_
  rw [(KHost0b.kept8 m ρ c main_arg10 (by decide)).trans (KHost0b.W1_launch m ρ c main_arg10 (by decide))]
  exact (KHost0b.catCols_hi _ _ _ k j _).trans (KHost0b.pairMat_at _ 1 _ rfl _ _ k j)

theorem b_lo (c : Dev nD) (j : Fin 128) :
    bA m ρ c (ix2 (0 : Fin 1) (NodeValue3.lo j)) = nbA m c (ix2 (0 : Fin 2) j) := by
  refine (congrFun (stretch_b (W8 (F := Ideal) m ρ c)) _).trans ?_
  rw [(KHost0b.kept8 m ρ c main_arg11 (by decide)).trans (KHost0b.W1_launch m ρ c main_arg11 (by decide))]
  exact (shapeCast_a_1a_apply _ _ 0 _).trans ((KHost0b.catVec_lo _ _ _ j _).trans (KHost0b.pairRow_at _ 0 _ rfl _ _ j))

theorem b_hi (c : Dev nD) (j : Fin 128) :
    bA m ρ c (ix2 (0 : Fin 1) (NodeValue3.hi j)) = nbA m c (ix2 (1 : Fin 2) j) := by
  refine (congrFun (stretch_b (W8 (F := Ideal) m ρ c)) _).trans ?_
  rw [(KHost0b.kept8 m ρ c main_arg11 (by decide)).trans (KHost0b.W1_launch m ρ c main_arg11 (by decide))]
  exact (shapeCast_a_1a_apply _ _ 0 _).trans ((KHost0b.catVec_hi _ _ _ j _).trans (KHost0b.pairRow_at _ 1 _ rfl _ _ j))

end Cert.KernelIdeal.KHost1b

end
-- ==== Proof.KLayer1.lean ====
import proofs.«420892_j79345225826944_1_alg».proof.Proof.Gen.KernelIdeal.Frame
import proofs.«420892_j79345225826944_1_alg».proof.Proof.LayerSpec
import proofs.«420892_j79345225826944_1_alg».proof.Proof.EdgeValue2
import proofs.«420892_j79345225826944_1_alg».proof.Proof.NodeValue3
import proofs.«420892_j79345225826944_1_alg».proof.Proof.KHost1b
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

namespace Cert.KernelIdeal.KLayer1

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

abbrev eiA (c : Dev nD) : S2x800000.Idx → BitVec 32 := m ((c : Thread nD τ).loc main_arg1)
abbrev etA (c : Dev nD) : S800000.Idx → BitVec 32 := m ((c : Thread nD τ).loc main_arg2)
abbrev ntA (c : Dev nD) : S50000.Idx → BitVec 32 := m ((c : Thread nD τ).loc main_arg3)
abbrev eWA (c : Dev nD) : S3x128x32.Idx → EReal := m ((c : Thread nD τ).loc main_arg8)
abbrev ebA (c : Dev nD) : S3x32.Idx → EReal := m ((c : Thread nD τ).loc main_arg9)
abbrev nWA (c : Dev nD) : S2x96x128.Idx → EReal := m ((c : Thread nD τ).loc main_arg10)
abbrev nbA (c : Dev nD) : S2x128.Idx → EReal := m ((c : Thread nD τ).loc main_arg11)

abbrev tabA (c : Dev nD) : S50000x64.Idx → EReal := W6 (F := Ideal) m ρ c (Proc.devRef .tc main_v49)
abbrev featA (c : Dev nD) : S800000x128.Idx → EReal := W7 (F := Ideal) m ρ c (Proc.devRef .tc main_v65)
abbrev outA (c : Dev nD) : S50000x128.Idx → EReal := W12 (F := Ideal) m ρ c (Proc.devRef .tc main_v95)

def srcW (x1 : S2x800000.Idx → BitVec 32) : S800000.Idx → BitVec 32 :=
  shapeCast S800000 (extractStridedSlice S1x800000 ![0, 0] x1 slices_S2x800000_S1x800000_0_0) shapeCasts_S1x800000_S800000
def dstW (x1 : S2x800000.Idx → BitVec 32) : S800000.Idx → BitVec 32 :=
  shapeCast S800000 (extractStridedSlice S1x800000 ![1, 0] x1 slices_S2x800000_S1x800000_1_0) shapeCasts_S1x800000_S800000

def wrapW (w : S800000.Idx → BitVec 32) : S800000x1.Idx → BitVec 32 :=
  broadcastInDim S800000x1 ![0] bcast_S800000_S800000x1_0
    (select (cmpi .slt w (broadcastInDim S800000 ![] bcast_S_S800000 (constantI S_ 32 0#32)))
      (addi w (broadcastInDim S800000 ![] bcast_S_S800000 (constantI S_ 32 50000#32))) w)

abbrev join64 (a b : S800000x64.Idx → EReal) : S800000x128.Idx → EReal :=
  concatenate S800000x128 1 [⟨S800000x64, a⟩, ⟨S800000x64, b⟩] concatenates_S800000x64_S800000x64_S800000x128_d1

def featTerm (T : S50000x64.Idx → EReal) (x1 : S2x800000.Idx → BitVec 32) : S800000x128.Idx → EReal :=
  join64
    (Host.gather gather_S50000x64_S800000x1_S800000x64_1_0_n_n_0_1_164
      (truncf (F := Ideal) .bf16 (T : FVec Ideal S50000x64 .f32) bitsLt_bf16_f32) (wrapW (srcW x1)))
    (Host.gather gather_S50000x64_S800000x1_S800000x64_1_0_n_n_0_1_164
      (truncf (F := Ideal) .bf16 (T : FVec Ideal S50000x64 .f32) bitsLt_bf16_f32) (wrapW (dstW x1)))

set_option maxHeartbeats 2000000 in
theorem src_eq (c : Dev nD) : (W6 (F := Ideal) m ρ c (Proc.devRef .tc main_v1) : S800000.Idx → BitVec 32) = srcW (eiA m c) := by
  refine (KHost0b.kept6 m ρ c main_v1 (by decide)).trans ?_
  show (StableHlo.after (hostOps0 (F := Ideal)) (W0 (F := Ideal) m ρ c) (Proc.devRef .tc main_v1) : S800000.Idx → BitVec 32) = _
  after_results_simp
  rfl

theorem dst_eq (c : Dev nD) : (W6 (F := Ideal) m ρ c (Proc.devRef .tc main_v3) : S800000.Idx → BitVec 32) = dstW (eiA m c) :=
  (KHost0b.kept6 m ρ c main_v3 (by decide)).trans (KHost0b.W1_v3 m ρ c)

set_option maxHeartbeats 4000000 in
theorem feat_eq (c : Dev nD) : featA m ρ c = featTerm (tabA m ρ c) (eiA m c) := by
  show (StableHlo.after (hostOps2 (F := Ideal)) (W6 (F := Ideal) m ρ c) (Proc.devRef .tc main_v65) : S800000x128.Idx → EReal) = _
  after_results_simp
  unfold featTerm
  refine congrArg₂ join64 ?_ ?_
  · after_results_simp
    rw [src_eq m ρ c]
    rfl
  · after_results_simp
    rw [dst_eq m ρ c]
    rfl

set_option maxHeartbeats 2000000 in
theorem et_apply (c : Dev nD) (e : Fin 800000) :
    (W7 (F := Ideal) m ρ c (Proc.devRef .tc main_v66) : S800000x1.Idx → BitVec 32) (ix2 e (0 : Fin 1)) = etA m c (ix1 e) := by
  have h : (W7 (F := Ideal) m ρ c (Proc.devRef .tc main_v66) : S800000x1.Idx → BitVec 32)
      = shapeCast S800000x1 (etA m c) shapeCasts_S800000_S800000x1 := by
    show (StableHlo.after (hostOps2 (F := Ideal)) (W6 (F := Ideal) m ρ c) (Proc.devRef .tc main_v66) : S800000x1.Idx → BitVec 32) = _
    after_results_simp
    rw [(KHost0b.kept6 m ρ c main_arg2 (by decide)).trans (KHost0b.W1_launch m ρ c main_arg2 (by decide))]
    rfl
  rw [h]
  exact KHost0b.colCast_at _ _ e

set_option maxHeartbeats 2000000 in
theorem ew_apply (c : Dev nD) (k : Fin 128) (col : Fin 96) :
    (W7 (F := Ideal) m ρ c (Proc.devRef .tc main_v68) : S128x96.Idx → EReal) (ix2 k col)
      = eWA m c (ix3 (Cert.Gnn.tyOf col) k (Cert.Gnn.unitOf col)) := by
  have h : (W7 (F := Ideal) m ρ c (Proc.devRef .tc main_v68) : S128x96.Idx → EReal)
      = shapeCast S128x96 (transpose S128x3x32 [1, 0, 2] (eWA m c) transposes_S3x128x32_S128x3x32_1_0_2) shapeCasts_S128x3x32_S128x96 := by
    show (StableHlo.after (hostOps2 (F := Ideal)) (W6 (F := Ideal) m ρ c) (Proc.devRef .tc main_v68) : S128x96.Idx → EReal) = _
    after_results_simp
    rw [(KHost0b.kept6 m ρ c main_arg8 (by decide)).trans (KHost0b.W1_launch m ρ c main_arg8 (by decide))]
    rfl
  rw [h]
  exact KHost0b.typeCols_at _ _ _ k col

set_option maxHeartbeats 2000000 in
theorem eb_apply (c : Dev nD) (col : Fin 96) :
    (W7 (F := Ideal) m ρ c (Proc.devRef .tc main_v69) : S1x96.Idx → EReal) (ix2 (0 : Fin 1) col)
      = ebA m c (ix2 (Cert.Gnn.tyOf col) (Cert.Gnn.unitOf col)) := by
  have h : (W7 (F := Ideal) m ρ c (Proc.devRef .tc main_v69) : S1x96.Idx → EReal)
      = shapeCast S1x96 (ebA m c) shapeCasts_S3x32_S1x96 := by
    show (StableHlo.after (hostOps2 (F := Ideal)) (W6 (F := Ideal) m ρ c) (Proc.devRef .tc main_v69) : S1x96.Idx → EReal) = _
    after_results_simp
    rw [(KHost0b.kept6 m ρ c main_arg9 (by decide)).trans (KHost0b.W1_launch m ρ c main_arg9 (by decide))]
    rfl
  rw [h]
  exact KHost0b.typeRow_at _ col

theorem msg_apply (c : Dev nD) (e : Fin 800000) (k : Fin 96) :
    KHost1b.msgA m ρ c (ix2 e k)
      = Cert.Gnn.msg (fun e k => featA m ρ c (ix2 e k)) (fun e => etA m c (ix1 e)) (fun t k q => eWA m c (ix3 t k q))
          (fun t q => ebA m c (ix2 t q)) e (Cert.Gnn.tyOf k) (Cert.Gnn.unitOf k) := by
  refine (congrFun (W8_arr (F := Ideal) m ρ c 4 : KHost1b.msgA m ρ c = EdgeValue2.outA (V7 (F := Ideal) m ρ) c) (ix2 e k)).trans
    ((EdgeValue2.value (V7 (F := Ideal) m ρ) c e k).trans ?_)
  unfold Cert.Gnn.msg
  refine congrArg₂ (· * ·) (congrArg₂ max (congrArg₂ (· + ·) (Finset.sum_congr rfl fun k' _ => ?_) (eb_apply m ρ c k)) rfl)
    (congrArg₂ Cert.Gnn.ind (et_apply m ρ c e) rfl)
  exact congrArg (featA m ρ c (ix2 e k') * ·) (ew_apply m ρ c k' k)

theorem hid_apply (c : Dev nD) (n : Fin 50000) (k : Fin 96) :
    KHost1b.hA m ρ c (ix2 n k)
      = Cert.Gnn.hid (fun e k => featA m ρ c (ix2 e k)) (fun e => etA m c (ix1 e)) (fun e => eiA m c (ix2 (1 : Fin 2) e))
          (fun t k q => eWA m c (ix3 t k q)) (fun t q => ebA m c (ix2 t q)) n (Cert.Gnn.tyOf k) (Cert.Gnn.unitOf k) := by
  refine (KHost1b.h_apply m ρ c n k).trans ?_
  unfold Cert.Gnn.hid
  refine congrArg₂ Ideal.div ?_ rfl
  exact congrArg (Cert.Gnn.agg _ · n) (funext fun e => msg_apply m ρ c e k)

theorem value (c : Dev nD) (n : Fin 50000) (j : Fin 128) :
    outA m ρ c (ix2 n j)
      = Cert.Gnn.layerMasked (fun e k => featA m ρ c (ix2 e k)) (fun e => etA m c (ix1 e)) (fun e => eiA m c (ix2 (1 : Fin 2) e))
          (fun n => ntA m c (ix1 n)) (fun t k q => eWA m c (ix3 t k q)) (fun t q => ebA m c (ix2 t q))
          (fun u k j => nWA m c (ix3 u k j)) (fun u j => nbA m c (ix2 u j)) n j := by
  refine (congrFun (W12_arr (F := Ideal) m ρ c 4 : outA m ρ c = NodeValue3.outA (V11 (F := Ideal) m ρ) c) (ix2 n j)).trans
    ((NodeValue3.value (V11 (F := Ideal) m ρ) c n j).trans ?_)
  unfold Cert.Gnn.layerMasked Cert.Gnn.upd
  refine congrArg₂ (· + ·)
    (congrArg₂ (· * ·)
      (congrArg₂ max (congrArg₂ (· + ·) (Finset.sum_congr rfl fun k _ => ?_) (KHost1b.b_lo m ρ c j)) rfl)
      (congrArg₂ Cert.Gnn.ind (KHost1b.nt_apply m ρ c n) rfl))
    (congrArg₂ (· * ·)
      (congrArg₂ max (congrArg₂ (· + ·) (Finset.sum_congr rfl fun k _ => ?_) (KHost1b.b_hi m ρ c j)) rfl)
      (congrArg₂ Cert.Gnn.ind (KHost1b.nt_apply m ρ c n) rfl))
  · exact congrArg₂ (· * ·) (hid_apply m ρ c n k) (KHost1b.w_lo m ρ c k j)
  · exact congrArg₂ (· * ·) (hid_apply m ρ c n k) (KHost1b.w_hi m ρ c k j)

end Cert.KernelIdeal.KLayer1

end
-- ==== Proof.LibVecScatterAdd.lean ====
import Idealize.ShloMosaic.Lib.ValueIdx
import Idealize.ShloMosaic.Lib.ValueIdxRank1
import Idealize.ShloMosaic.PureOps.Ideal.Laws

noncomputable section

namespace Idealize.ShloMosaic.ValueIdx

section VecScatterAdd

/-- The scatter that adds entry `r` of `upd : [R]` onto entry `idx[r, 0]` of an `[N]` operand. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

variable {N R : Nat} (wf : ScatterDims.WF ⟨1, ![N]⟩ ⟨2, ![R, 1]⟩ ⟨1, ![R]⟩ [] [0] [0] 1)

theorem vs_not_mem_sKept :
    (0 : Fin 1) ∉ (vecScatterDims N R wf).sKept := by
  show (0 : Fin 1) ∉ (List.finRange 1).filter (fun a => a ∉ [(0 : Fin 1)])
  decide

theorem vs_window (r : Fin R) :
    (vecScatterDims N R wf).window (ix1 r) 0 = 0 := by
  unfold ScatterDims.window
  rw [dif_neg (vs_not_mem_sKept wf)]

theorem vs_start {w : Nat}
    (idx : IVec ⟨2, ![R, 1]⟩ w) (r : Fin R) :
    (vecScatterDims N R wf).start (ix1 r) idx 0 = (idx (ix2 r (0 : Fin 1))).toInt := by
  unfold ScatterDims.start
  rw [dif_pos (show (0 : Fin 1) ∈ (vecScatterDims N R wf).scatterDimsToOperandDims from List.mem_singleton.mpr rfl)]
  have hsi : (vecScatterDims N R wf).siIdx (ix1 r) ⟨List.idxOf (0 : Fin 1) (vecScatterDims N R wf).scatterDimsToOperandDims,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]

/-- Update entry `r` lands on operand entry `n` exactly when its index word, read signed, is `n`. -/
theorem vecScatter_resultIdx_iff {w : Nat}
    (idx : IVec ⟨2, ![R, 1]⟩ w) (r : Fin R) (n : Fin N) :
    (vecScatterDims N R wf).resultIdx? (ix1 r) idx = some (ix1 n)
      ↔ (idx (ix2 r (0 : Fin 1))).toInt = (n.val : Int) := by
  unfold ScatterDims.resultIdx?
  have hN : (![N] 0 : Nat) = N := rfl
  have hn := n.isLt
  simp only [Fin.forall_fin_one, vs_start, vs_window]
  split
  · rw [Option.some.injEq]
    constructor
    · intro he
      have e0 : ((vecScatterDims N R wf).start (ix1 r) idx 0
          + ((vecScatterDims N R wf).window (ix1 r) 0 : Nat)).toNat = n.val :=
        congrArg (fun f => (f 0).val) he
      rw [vs_start, vs_window] at e0
      omega
    · intro e0
      funext a
      refine Fin.ext ?_
      match a with
      | ⟨0, _⟩ =>
        show ((vecScatterDims N R wf).start (ix1 r) idx 0
          + ((vecScatterDims N R wf).window (ix1 r) 0 : Nat)).toNat = n.val
        rw [vs_start, vs_window]; omega
  · rename_i h
    constructor
    · intro he; cases he
    · intro e0
      exact absurd ⟨by omega, by omega⟩ h

/-- So the result at `n` is the operand's entry plus the sum of `upd r` over the `r` sent to `n`. -/
theorem vecScatterAdd_apply {w : Nat}
    (x : (⟨1, ![N]⟩ : Shape).Idx → EReal) (idx : IVec ⟨2, ![R, 1]⟩ w)
    (upd : (⟨1, ![R]⟩ : Shape).Idx → EReal) (n : Fin N) :
    Ideal.hostScatterAdd (vecScatterDims N R wf) x idx upd (ix1 n)
      = x (ix1 n) + ∑ r : Fin R, if (idx (ix2 r (0 : Fin 1))).toInt = (n.val : Int) then upd (ix1 r) else 0 := by
  show x (ix1 n) + ∑ j ∈ Finset.univ.filter
      (fun j => (vecScatterDims N R wf).resultIdx? j idx = some (ix1 n)), upd j = _
  congr 1
  rw [Finset.sum_filter, ← Equiv.sum_comp (idxEquiv1 (n := R)).symm]
  refine Finset.sum_congr rfl (fun r _ => ?_)
  show (if (vecScatterDims N R wf).resultIdx? (ix1 r) idx = some (ix1 n) then upd (ix1 r) else 0) = _
  simp only [vecScatter_resultIdx_iff]

end VecScatterAdd

end Idealize.ShloMosaic.ValueIdx

end
-- ==== Proof.RefLayer0.lean ====
import proofs.«420892_j79345225826944_1_alg».proof.Proof.RefRead
import proofs.«420892_j79345225826944_1_alg».proof.Proof.LayerSpec
import proofs.«420892_j79345225826944_1_alg».proof.Proof.LibRowScatterAdd
import proofs.«420892_j79345225826944_1_alg».proof.Proof.LibHostRead
import proofs.«420892_j79345225826944_1_alg».proof.Proof.LibVecScatterAdd
import Idealize.ShloMosaic.Lib.StableHlo.Predicate

noncomputable section

namespace Cert.ReferenceIdeal.RefLayer0

open Idealize.ShloMosaic Idealize.ShloMosaic.TcCoe Idealize.ShloMosaic.ValueIdx
open Cert.ReferenceIdeal Cert.ReferenceIdeal.Read Cert.Gnn

-- A one-bit equality test is 1 exactly when the words agree, so its float is their indicator.
theorem uitofp_cmpi_eq (a b : BitVec 32) :
    (FloatOps.uitofp (F := Ideal) .f32 (IntOp.cmpi .eq a b) : EReal) = ind a b := by
  unfold ind
  by_cases h : a = b
  · rw [if_pos h, StableHlo.Predicate.cmpi_eq_iff.mpr h]
    show (((1#1 : BitVec 1).toNat : ℝ) : EReal) = 1
    simp
  · rw [if_neg h, eq_zero_of_ne_one (mt StableHlo.Predicate.cmpi_eq_iff.mp h)]
    show (((0#1 : BitVec 1).toNat : ℝ) : EReal) = 0
    simp

-- An index is determined by its coordinates.
theorem ix1_of {n : ℕ} {i : (⟨1, ![n]⟩ : Shape).Idx} {a : Fin n} (h : (i 0).val = a.val) : i = ix1 a := by
  obtain rfl : i 0 = a := Fin.ext h
  exact eq_ix1 i
theorem ix2_of {n0 n1 : ℕ} {i : (⟨2, ![n0, n1]⟩ : Shape).Idx} {a : Fin n0} {b : Fin n1}
    (h0 : (i 0).val = a.val) (h1 : (i 1).val = b.val) : i = ix2 a b := by
  obtain rfl : i 0 = a := Fin.ext h0
  obtain rfl : i 1 = b := Fin.ext h1
  exact eq_ix2 i
theorem ix3_of {n0 n1 n2 : ℕ} {i : (⟨3, ![n0, n1, n2]⟩ : Shape).Idx} {a : Fin n0} {b : Fin n1} {c : Fin n2}
    (h0 : (i 0).val = a.val) (h1 : (i 1).val = b.val) (h2 : (i 2).val = c.val) : i = ix3 a b c := by
  obtain rfl : i 0 = a := Fin.ext h0
  obtain rfl : i 1 = b := Fin.ext h1
  obtain rfl : i 2 = c := Fin.ext h2
  exact eq_ix3 i

-- The flat position k * n + q splits back into row k and column q.
theorem unflat {m n : ℕ} (k : Fin m) (q : Fin n) :
    (k.val * n + q.val) / n % m = k.val ∧ (k.val * n + q.val) % n = q.val := by
  obtain ⟨hd, hm⟩ := (Nat.div_mod_unique (a := k.val * n + q.val) (c := q.val) (d := k.val)
    (Nat.zero_lt_of_lt q.2)).mpr ⟨by rw [Nat.mul_comm, Nat.add_comm], q.2⟩
  exact ⟨by rw [hd, Nat.mod_eq_of_lt k.2], hm⟩

-- A masked message from its reads: weighted sum, bias, positive part, times the type indicator.
theorem msg_of_reads {K : ℕ} (fv : (⟨2, ![800000, K]⟩ : Shape).Idx → EReal) (et : S800000.Idx → BitVec 32)
    (w : (⟨3, ![3, K, 32]⟩ : Shape).Idx → EReal) (b : S3x32.Idx → EReal) (e : Fin 800000) (t : Fin 3) (q : Fin 32)
    (li : Fin K → (⟨2, ![800000, K]⟩ : Shape).Idx) (ri : Fin K → (⟨3, ![3, K, 32]⟩ : Shape).Idx) (bi : S3x32.Idx)
    (mi : S800000.Idx) (hl : ∀ k, li k = ix2 e k := by exact fun _ => ix2_of rfl rfl)
    (hr : ∀ k, ri k = ix3 t k q := by exact fun _ => ix3_of rfl (unflat _ _).1 (unflat _ _).2)
    (hb : bi = ix2 t q := by exact ix2_of rfl (Nat.mod_eq_of_lt (Fin.isLt _))) (hm : mi = ix1 e := by exact ix1_of rfl) :
    FloatOps.mulf (F := Ideal) (φ := .f32)
        (FloatOps.maximumf (FloatOps.addf (∑ k, fv (li k) * w (ri k)) (b bi)) (FloatOps.ofBits .f32 0#32))
        (FloatOps.uitofp .f32 (IntOp.cmpi .eq (et mi) (BitVec.ofNat 32 t.val)))
      = msg (fun e k => fv (ix2 e k)) (fun e => et (ix1 e)) (fun t k q => w (ix3 t k q)) (fun t q => b (ix2 t q)) e t q := by
  simp only [hl, hr, hb, hm, uitofp_cmpi_eq]
  rfl

-- The index operand of every collection reads the destination word of its edge: row 1 of the edge list.
theorem dst_idx (x1 : S2x800000.Idx → BitVec 32) (e : Fin 800000) :
    val_main_v35 (F := Ideal) x1 (ix2 e (0 : Fin 1)) = x1 (ix2 (1 : Fin 2) e) := by
  rw [val_main_v35_apply, val_main_v3_apply, val_main_v2_apply]
  exact congrArg x1 (ix2_of rfl (Nat.mod_eq_of_lt e.2))

-- The mean of one edge type: messages and indicators collected from zero along the destination words, then divided.
theorem mean_of_parts {K : ℕ} (feat : Fin 800000 → Fin K → EReal) (et dst : Fin 800000 → BitVec 32)
    (eW : Fin 3 → Fin K → Fin 32 → EReal) (eb : Fin 3 → Fin 32 → EReal) (t : Fin 3)
    (z2 : FVec Ideal S50000x32 .f32) (i2 i1 : IVec S800000x1 32) (m : FVec Ideal S800000x32 .f32)
    (z1 : FVec Ideal S50000 .f32) (c : FVec Ideal S800000 .f32) (ci : S50000.Idx) (o : EReal)
    (hm : ∀ e q, m (ix2 e q) = msg feat et eW eb e t q) (n : Fin 50000) (q : Fin 32)
    (hc : ∀ e, c (ix1 e) = ind (et e) (BitVec.ofNat 32 t.val) := by exact fun _ => uitofp_cmpi_eq _ _)
    (hz2 : ∀ n q, z2 (ix2 n q) = fz := by exact fun _ _ => rfl) (hz1 : ∀ n, z1 (ix1 n) = fz := by exact fun _ => rfl)
    (hi2 : ∀ e, i2 (ix2 e (0 : Fin 1)) = dst e := by exact dst_idx _)
    (hi1 : ∀ e, i1 (ix2 e (0 : Fin 1)) = dst e := by exact dst_idx _)
    (hci : ci = ix1 n := by exact ix1_of rfl) (ho : o = fone := by rfl) :
    FloatOps.hostDivf (F := Ideal) (φ := .f32)
        (Host.scatterAdd (F := Ideal) scatter_S50000x32_S800000x1_S800000x32_1_0_0_1 z2 i2 m (ix2 n q))
        (FloatOps.maximumf (Host.scatterAdd (F := Ideal) scatter_S50000_S800000x1_S800000_n_0_0_1 z1 i1 c ci) o)
      = hid feat et dst eW eb n t q := by
  rw [hci, ho]
  show FloatOps.hostDivf (F := Ideal) (φ := .f32)
    (Ideal.hostScatterAdd (rowScatterDims 50000 800000 32 Gen.scatter_S50000x32_S800000x1_S800000x32_1_0_0_1_wf) z2 i2 m (ix2 n q))
    (FloatOps.maximumf (Ideal.hostScatterAdd (vecScatterDims 50000 800000 Gen.scatter_S50000_S800000x1_S800000_n_0_0_1_wf) z1 i1 c (ix1 n)) fone) = _
  rw [rowScatterAdd_apply, vecScatterAdd_apply, hz2, hz1]
  simp only [hi2, hi1, hm, hc]
  rfl

-- Three 32-wide means side by side: column k of the 96-wide vector is unit k % 32 of edge type k / 32.
theorem joined_of_means (h : Fin 3 → Fin 32 → EReal) (m0 m1 m2 : S50000x32.Idx → EReal) (n : Fin 50000)
    (h0 : ∀ q, m0 (ix2 n q) = h 0 q) (h1 : ∀ q, m1 (ix2 n q) = h 1 q) (h2 : ∀ q, m2 (ix2 n q) = h 2 q) (k : Fin 96) :
    concatenate S50000x96 1 [⟨S50000x32, m0⟩, ⟨S50000x32, m1⟩, ⟨S50000x32, m2⟩]
        Gen.concatenates_S50000x32_S50000x32_S50000x32_S50000x96_d1 (ix2 n k) = h (tyOf k) (unitOf k) := by
  have hm : ∀ t q, (![m0, m1, m2] : Fin 3 → S50000x32.Idx → EReal) t (ix2 n q) = h t q := fun t => match t with
    | ⟨0, _⟩ => h0
    | ⟨1, _⟩ => h1
    | ⟨2, _⟩ => h2
  exact (concatenate_ofFn_apply (1 : Fin S50000x96.rank) ![m0, m1, m2] _ rfl 32 rfl (ix2 n k) (tyOf k) rfl
    (ix2 n (unitOf k)) rfl fun b hb => match b with
      | ⟨0, _⟩ => rfl
      | ⟨1, _⟩ => absurd rfl hb).trans (hm _ _)

-- A node update from its reads: the hidden vector through the node type's weights, plus bias, positive part.
theorem upd_of_reads {Do : ℕ} (h : Fin 3 → Fin 32 → EReal) (hv : S50000x96.Idx → EReal)
    (w : (⟨3, ![2, 96, Do]⟩ : Shape).Idx → EReal) (b : (⟨2, ![2, Do]⟩ : Shape).Idx → EReal) (n : Fin 50000) (u : Fin 2)
    (j : Fin Do) (li : Fin 96 → S50000x96.Idx) (ri : Fin 96 → (⟨3, ![2, 96, Do]⟩ : Shape).Idx)
    (bi : (⟨2, ![2, Do]⟩ : Shape).Idx) (hh : ∀ k, hv (ix2 n k) = h (tyOf k) (unitOf k))
    (hl : ∀ k, li k = ix2 n k := by exact fun _ => ix2_of rfl rfl)
    (hr : ∀ k, ri k = ix3 u k j := by exact fun _ => ix3_of rfl (unflat _ _).1 (unflat _ _).2)
    (hb : bi = ix2 u j := by exact ix2_of rfl (Nat.mod_eq_of_lt (Fin.isLt _))) :
    FloatOps.maximumf (F := Ideal) (φ := .f32) (FloatOps.addf (∑ k, hv (li k) * w (ri k)) (b bi)) (FloatOps.ofBits .f32 0#32)
      = upd h (fun u k j => w (ix3 u k j)) (fun u j => b (ix2 u j)) u j := by
  simp only [hl, hr, hb, hh]
  rfl

-- A select on the node's type word being zero chooses between the two node updates.
theorem select_of_upds {Do : ℕ} (h : Fin 3 → Fin 32 → EReal) (nW : Fin 2 → Fin 96 → Fin Do → EReal)
    (nb : Fin 2 → Fin Do → EReal) (j : Fin Do) (w v : BitVec 32) (a b : EReal) (hw : w = v)
    (ha : a = upd h nW nb 0 j) (hb : b = upd h nW nb 1 j) :
    Scalar.select (IntOp.cmpi .eq w 0#32) a b = if v = 0#32 then upd h nW nb 0 j else upd h nW nb 1 j := by
  rw [hw, ha, hb]
  by_cases h' : v = 0#32
  · rw [StableHlo.Predicate.cmpi_eq_iff.mpr h', select_one, if_pos h']
  · rw [eq_zero_of_ne_one (mt StableHlo.Predicate.cmpi_eq_iff.mp h'), select_zero, if_neg h']

section Stages

variable (x0 : S50000x128.Idx → EReal) (x1 : S2x800000.Idx → BitVec 32) (x2 : S800000.Idx → BitVec 32)
    (x3 : S50000.Idx → BitVec 32) (x4 : S3x256x32.Idx → EReal) (x5 : S3x32.Idx → EReal) (x6 : S2x96x64.Idx → EReal)
    (x7 : S2x64.Idx → EReal)

-- The joined hidden vector of the first layer: each 32-wide piece is the mean of its edge type.
theorem joined (n : Fin 50000) (k : Fin 96) :
    val_main_v97 (F := Ideal) x0 x1 x2 x4 x5 (ix2 n k)
      = hid (fun e k => val_main_v18 (F := Ideal) x0 x1 (ix2 e k)) (fun e => x2 (ix1 e)) (fun e => x1 (ix2 (1 : Fin 2) e))
          (fun t k q => x4 (ix3 t k q)) (fun t q => x5 (ix2 t q)) n (tyOf k) (unitOf k) := by
  refine joined_of_means (hid _ _ _ _ _ n) _ _ _ n (fun q => ?_) (fun q => ?_) (fun q => ?_) k
  · rw [val_main_v44_apply, val_main_v43_apply, val_main_v42_apply, val_main_v41_apply, val_main_v40_apply,
      val_main_cst_5_apply]
    refine mean_of_parts _ _ _ _ _ 0 _ _ _ _ _ _ _ _ (fun e q => ?_) n q
    rw [val_main_v33_apply, val_main_v27_apply, val_main_v26_apply, val_main_v21_apply, val_main_v25_apply,
      val_main_v24_apply, val_main_v23_apply, val_main_v22_apply, val_main_call0_v0_apply, val_main_call0_cst_apply,
      val_main_v32_apply, val_main_v31_apply, val_main_v30_apply, val_main_v29_apply, val_main_v28_apply,
      val_main_c_3_apply]
    simp only [val_main_v20_apply, val_main_v19_apply]
    exact msg_of_reads _ x2 x4 x5 e 0 q _ _ _ _
  · rw [val_main_v70_apply, val_main_v69_apply, val_main_v68_apply, val_main_v67_apply, val_main_v66_apply,
      val_main_cst_9_apply]
    refine mean_of_parts _ _ _ _ _ 1 _ _ _ _ _ _ _ _ (fun e q => ?_) n q
    rw [val_main_v59_apply, val_main_v53_apply, val_main_v52_apply, val_main_v47_apply, val_main_v51_apply,
      val_main_v50_apply, val_main_v49_apply, val_main_v48_apply, val_main_call1_v0_apply, val_main_call1_cst_apply,
      val_main_v58_apply, val_main_v57_apply, val_main_v56_apply, val_main_v55_apply, val_main_v54_apply,
      val_main_c_6_apply]
    simp only [val_main_v46_apply, val_main_v45_apply]
    exact msg_of_reads _ x2 x4 x5 e 1 q _ _ _ _
  · rw [val_main_v96_apply, val_main_v95_apply, val_main_v94_apply, val_main_v93_apply, val_main_v92_apply,
      val_main_cst_13_apply]
    refine mean_of_parts _ _ _ _ _ 2 _ _ _ _ _ _ _ _ (fun e q => ?_) n q
    rw [val_main_v85_apply, val_main_v79_apply, val_main_v78_apply, val_main_v73_apply, val_main_v77_apply,
      val_main_v76_apply, val_main_v75_apply, val_main_v74_apply, val_main_call2_v0_apply, val_main_call2_cst_apply,
      val_main_v84_apply, val_main_v83_apply, val_main_v82_apply, val_main_v81_apply, val_main_v80_apply,
      val_main_c_10_apply]
    simp only [val_main_v72_apply, val_main_v71_apply]
    exact msg_of_reads _ x2 x4 x5 e 2 q _ _ _ _

end Stages

theorem value (x0 : S50000x128.Idx → EReal) (x1 : S2x800000.Idx → BitVec 32) (x2 : S800000.Idx → BitVec 32)
    (x3 : S50000.Idx → BitVec 32) (x4 : S3x256x32.Idx → EReal) (x5 : S3x32.Idx → EReal) (x6 : S2x96x64.Idx → EReal)
    (x7 : S2x64.Idx → EReal) (n : Fin 50000) (j : Fin 64) :
    val_main_v119 (F := Ideal) x0 x1 x2 x3 x4 x5 x6 x7 (ix2 n j)
      = Cert.Gnn.layer (fun e k => val_main_v18 (F := Ideal) x0 x1 (ix2 e k)) (fun e => x2 (ix1 e)) (fun e => x1 (ix2 (1 : Fin 2) e))
          (fun n => x3 (ix1 n)) (fun t k q => x4 (ix3 t k q)) (fun t q => x5 (ix2 t q))
          (fun u k j => x6 (ix3 u k j)) (fun u j => x7 (ix2 u j)) n j := by
  rw [val_main_v119_apply, val_main_call5_v0_apply, val_main_v118_apply, val_main_v117_apply, val_main_v116_apply,
    val_main_c_14_apply]
  refine select_of_upds (hid _ _ _ _ _ n) _ _ j _ (x3 (ix1 n)) _ _ (congrArg x3 (ix1_of rfl)) ?_ ?_
  · rw [val_main_v106_apply, val_main_v105_apply, val_main_v100_apply, val_main_v104_apply, val_main_v103_apply,
      val_main_v102_apply, val_main_v101_apply, val_main_call3_v0_apply, val_main_call3_cst_apply]
    simp only [val_main_v99_apply, val_main_v98_apply]
    exact upd_of_reads _ _ x6 x7 n 0 j _ _ _ (joined x0 x1 x2 x4 x5 n)
  · rw [val_main_v115_apply, val_main_v114_apply, val_main_v109_apply, val_main_v113_apply, val_main_v112_apply,
      val_main_v111_apply, val_main_v110_apply, val_main_call4_v0_apply, val_main_call4_cst_apply]
    simp only [val_main_v108_apply, val_main_v107_apply]
    exact upd_of_reads _ _ x6 x7 n 1 j _ _ _ (joined x0 x1 x2 x4 x5 n)

end Cert.ReferenceIdeal.RefLayer0

end
-- ==== Proof.RefLayer1b.lean ====
import proofs.«420892_j79345225826944_1_alg».proof.Proof.RefLayer0

noncomputable section

namespace Cert.ReferenceIdeal.RefLayer1

open Idealize.ShloMosaic Idealize.ShloMosaic.TcCoe Idealize.ShloMosaic.ValueIdx
open Cert.ReferenceIdeal Cert.ReferenceIdeal.Read Cert.Gnn
open Cert.ReferenceIdeal.RefLayer0 (ix1_of ix2_of ix3_of unflat dst_idx uitofp_cmpi_eq joined_of_means mean_of_parts msg_of_reads
  upd_of_reads select_of_upds)

-- The node stage of the second layer, from what the joined hidden vector reads at node n.
theorem value_of_joined (x0 : S50000x128.Idx → EReal) (x1 : S2x800000.Idx → BitVec 32) (x2 : S800000.Idx → BitVec 32)
    (x3 : S50000.Idx → BitVec 32) (x4 : S3x256x32.Idx → EReal) (x5 : S3x32.Idx → EReal) (x6 : S2x96x64.Idx → EReal)
    (x7 : S2x64.Idx → EReal) (x8 : S3x128x32.Idx → EReal) (x9 : S3x32.Idx → EReal) (x10 : S2x96x128.Idx → EReal)
    (x11 : S2x128.Idx → EReal) (n : Fin 50000) (h : Fin 3 → Fin 32 → EReal)
    (hj : ∀ k, val_main_v213 (F := Ideal) x0 x1 x2 x3 x4 x5 x6 x7 x8 x9 (ix2 n k) = h (tyOf k) (unitOf k)) (j : Fin 128) :
    val_main_v235 (F := Ideal) x0 x1 x2 x3 x4 x5 x6 x7 x8 x9 x10 x11 (ix2 n j)
      = if x3 (ix1 n) = 0#32 then upd h (fun u k j => x10 (ix3 u k j)) (fun u j => x11 (ix2 u j)) 0 j
        else upd h (fun u k j => x10 (ix3 u k j)) (fun u j => x11 (ix2 u j)) 1 j := by
  rw [val_main_v235_apply, val_main_call11_v0_apply, val_main_v234_apply, val_main_v233_apply, val_main_v232_apply,
    val_main_c_31_apply]
  refine select_of_upds h _ _ j _ _ _ _ (congrArg x3 (ix1_of rfl)) ?_ ?_
  · rw [val_main_v222_apply, val_main_v221_apply, val_main_v216_apply, val_main_v220_apply, val_main_v219_apply,
      val_main_v218_apply, val_main_v217_apply, val_main_call9_v0_apply, val_main_call9_cst_apply]
    simp only [val_main_v215_apply, val_main_v214_apply]
    exact upd_of_reads h _ x10 x11 n 0 j _ _ _ hj
  · rw [val_main_v231_apply, val_main_v230_apply, val_main_v225_apply, val_main_v229_apply, val_main_v228_apply,
      val_main_v227_apply, val_main_v226_apply, val_main_call10_v0_apply, val_main_call10_cst_apply]
    simp only [val_main_v224_apply, val_main_v223_apply]
    exact upd_of_reads h _ x10 x11 n 1 j _ _ _ hj

end Cert.ReferenceIdeal.RefLayer1

end
-- ==== Proof.RefLayer1.lean ====
import proofs.«420892_j79345225826944_1_alg».proof.Proof.RefLayer1b

noncomputable section

namespace Cert.ReferenceIdeal.RefLayer1

open Idealize.ShloMosaic Idealize.ShloMosaic.TcCoe Idealize.ShloMosaic.ValueIdx
open Cert.ReferenceIdeal Cert.ReferenceIdeal.Read Cert.Gnn
open Cert.ReferenceIdeal.RefLayer0 (ix1_of ix2_of ix3_of unflat dst_idx uitofp_cmpi_eq joined_of_means mean_of_parts msg_of_reads
  upd_of_reads select_of_upds)

-- The joined hidden vector of the second layer: each 32-wide piece is the mean of its edge type.
theorem joined (x0 : S50000x128.Idx → EReal) (x1 : S2x800000.Idx → BitVec 32) (x2 : S800000.Idx → BitVec 32)
    (x3 : S50000.Idx → BitVec 32) (x4 : S3x256x32.Idx → EReal) (x5 : S3x32.Idx → EReal) (x6 : S2x96x64.Idx → EReal)
    (x7 : S2x64.Idx → EReal) (x8 : S3x128x32.Idx → EReal) (x9 : S3x32.Idx → EReal) (n : Fin 50000) (k : Fin 96) :
    val_main_v213 (F := Ideal) x0 x1 x2 x3 x4 x5 x6 x7 x8 x9 (ix2 n k)
      = hid (fun e k => val_main_v134 (F := Ideal) x0 x1 x2 x3 x4 x5 x6 x7 (ix2 e k)) (fun e => x2 (ix1 e))
          (fun e => x1 (ix2 (1 : Fin 2) e)) (fun t k q => x8 (ix3 t k q)) (fun t q => x9 (ix2 t q)) n (tyOf k) (unitOf k) := by
  refine joined_of_means (hid _ _ _ _ _ n) _ _ _ n (fun q => ?_) (fun q => ?_) (fun q => ?_) k
  · rw [val_main_v160_apply, val_main_v159_apply, val_main_v158_apply, val_main_v157_apply, val_main_v156_apply,
      val_main_cst_22_apply]
    refine mean_of_parts _ _ _ _ _ 0 _ _ _ _ _ _ _ _ (fun e q => ?_) n q
    rw [val_main_v149_apply, val_main_v143_apply, val_main_v142_apply, val_main_v137_apply, val_main_v141_apply,
      val_main_v140_apply, val_main_v139_apply, val_main_v138_apply, val_main_call6_v0_apply, val_main_call6_cst_apply,
      val_main_v148_apply, val_main_v147_apply, val_main_v146_apply, val_main_v145_apply, val_main_v144_apply,
      val_main_c_19_apply]
    simp only [val_main_v136_apply, val_main_v135_apply]
    exact msg_of_reads _ x2 x8 x9 e 0 q _ _ _ _
  · rw [val_main_v186_apply, val_main_v185_apply, val_main_v184_apply, val_main_v183_apply, val_main_v182_apply,
      val_main_cst_26_apply]
    refine mean_of_parts _ _ _ _ _ 1 _ _ _ _ _ _ _ _ (fun e q => ?_) n q
    rw [val_main_v175_apply, val_main_v169_apply, val_main_v168_apply, val_main_v163_apply, val_main_v167_apply,
      val_main_v166_apply, val_main_v165_apply, val_main_v164_apply, val_main_call7_v0_apply, val_main_call7_cst_apply,
      val_main_v174_apply, val_main_v173_apply, val_main_v172_apply, val_main_v171_apply, val_main_v170_apply,
      val_main_c_23_apply]
    simp only [val_main_v162_apply, val_main_v161_apply]
    exact msg_of_reads _ x2 x8 x9 e 1 q _ _ _ _
  · rw [val_main_v212_apply, val_main_v211_apply, val_main_v210_apply, val_main_v209_apply, val_main_v208_apply,
      val_main_cst_30_apply]
    refine mean_of_parts _ _ _ _ _ 2 _ _ _ _ _ _ _ _ (fun e q => ?_) n q
    rw [val_main_v201_apply, val_main_v195_apply, val_main_v194_apply, val_main_v189_apply, val_main_v193_apply,
      val_main_v192_apply, val_main_v191_apply, val_main_v190_apply, val_main_call8_v0_apply, val_main_call8_cst_apply,
      val_main_v200_apply, val_main_v199_apply, val_main_v198_apply, val_main_v197_apply, val_main_v196_apply,
      val_main_c_27_apply]
    simp only [val_main_v188_apply, val_main_v187_apply]
    exact msg_of_reads _ x2 x8 x9 e 2 q _ _ _ _

theorem value (x0 : S50000x128.Idx → EReal) (x1 : S2x800000.Idx → BitVec 32) (x2 : S800000.Idx → BitVec 32)
    (x3 : S50000.Idx → BitVec 32) (x4 : S3x256x32.Idx → EReal) (x5 : S3x32.Idx → EReal) (x6 : S2x96x64.Idx → EReal)
    (x7 : S2x64.Idx → EReal) (x8 : S3x128x32.Idx → EReal) (x9 : S3x32.Idx → EReal) (x10 : S2x96x128.Idx → EReal)
    (x11 : S2x128.Idx → EReal) (n : Fin 50000) (j : Fin 128) :
    val_main_v235 (F := Ideal) x0 x1 x2 x3 x4 x5 x6 x7 x8 x9 x10 x11 (ix2 n j)
      = Cert.Gnn.layer (fun e k => val_main_v134 (F := Ideal) x0 x1 x2 x3 x4 x5 x6 x7 (ix2 e k)) (fun e => x2 (ix1 e))
          (fun e => x1 (ix2 (1 : Fin 2) e)) (fun n => x3 (ix1 n)) (fun t k q => x8 (ix3 t k q)) (fun t q => x9 (ix2 t q))
          (fun u k j => x10 (ix3 u k j)) (fun u j => x11 (ix2 u j)) n j :=
  value_of_joined x0 x1 x2 x3 x4 x5 x6 x7 x8 x9 x10 x11 n _ (joined x0 x1 x2 x3 x4 x5 x6 x7 x8 x9 n) j

end Cert.ReferenceIdeal.RefLayer1

end
-- ==== Proof.PreDecode.lean ====
import proofs.«420892_j79345225826944_1_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.Proof.PreDecode

open Idealize.ShloMosaic Idealize.ShloMosaic.ValueIdx Cert.Pre_finite_inputs

variable [Cert.Pre_finite_inputs.Facts]

/-- When the precondition's one boolean is 1, its last conjunct, the all-reduction of "the node's type word is 0 or is 1", is 1 at every node. -/
theorem nodeType_of_pre (a0 : FVec Ideal S50000x128 .f32) (a1 : IVec S2x800000 32) (a2 : IVec S800000 32) (a3 : IVec S50000 32)
    (a4 : FVec Ideal S3x256x32 .f32) (a5 : FVec Ideal S3x32 .f32) (a6 : FVec Ideal S2x96x64 .f32) (a7 : FVec Ideal S2x64 .f32)
    (a8 : FVec Ideal S3x128x32 .f32) (a9 : FVec Ideal S3x32 .f32) (a10 : FVec Ideal S2x96x128 .f32) (a11 : FVec Ideal S2x128 .f32)
    (h : Cert.Pre_finite_inputs.fn (F := Ideal) a0 a1 a2 a3 a4 a5 a6 a7 a8 a9 a10 a11 = fun _ => 1#1) (n : Fin 50000) :
    a3 (ix1 n) = 0#32 ∨ a3 (ix1 n) = 1#32 := by
  haveI : Subsingleton S_.Idx := ⟨fun a b => funext fun d => d.elim0⟩
  have e : Cert.Pre_finite_inputs.fn (F := Ideal) a0 a1 a2 a3 a4 a5 a6 a7 a8 a9 a10 a11 ix0 = 1#1 := congrFun h ix0
  have e2 := (IntOp.andi_eq_one.1 e).2
  have e3 := Host.reduce_andi_all _ _ _ _ ix0 e2 (ix1 n)
  rcases IntOp.ori_eq_one.1 e3 with h0 | h1
  · exact Or.inl (IntOp.cmpi_eq.1 h0)
  · exact Or.inr (IntOp.cmpi_eq.1 h1)

end Cert.Proof.PreDecode

end
-- ==== Proof.Join.lean ====
import proofs.«420892_j79345225826944_1_alg».proof.Defs
import proofs.«420892_j79345225826944_1_alg».proof.Proof.Gen.KernelIdeal.Frame
import proofs.«420892_j79345225826944_1_alg».proof.Proof.Gen.Pre_finite_inputs
import proofs.«420892_j79345225826944_1_alg».proof.Proof.LayerSpec
import proofs.«420892_j79345225826944_1_alg».proof.Proof.KLayer0
import proofs.«420892_j79345225826944_1_alg».proof.Proof.KLayer1
import proofs.«420892_j79345225826944_1_alg».proof.Proof.RefRead
import proofs.«420892_j79345225826944_1_alg».proof.Proof.RefLayer0
import proofs.«420892_j79345225826944_1_alg».proof.Proof.RefLayer1
import proofs.«420892_j79345225826944_1_alg».proof.Proof.PreDecode
import Idealize.ShloMosaic.Lib.ValueIdx

set_option maxRecDepth 16384

noncomputable section

namespace Cert.Proof.Join

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- Both programs join the same two gathers of the node features. -/
theorem feat0_bridge (x0 : S50000x128.Idx → EReal) (x1 : S2x800000.Idx → BitVec 32) :
    KLayer0.featTerm x0 x1 = Cert.ReferenceIdeal.Read.val_main_v18 (F := Ideal) x0 x1 := by
  rfl

/-- The same for the second layer, over the first layer's result. -/
theorem feat1_bridge (x0 : S50000x128.Idx → EReal) (x1 : S2x800000.Idx → BitVec 32) (x2 : S800000.Idx → BitVec 32)
    (x3 : S50000.Idx → BitVec 32) (x4 : S3x256x32.Idx → EReal) (x5 : S3x32.Idx → EReal) (x6 : S2x96x64.Idx → EReal)
    (x7 : S2x64.Idx → EReal) :
    KLayer1.featTerm (Cert.ReferenceIdeal.Read.val_main_v119 (F := Ideal) x0 x1 x2 x3 x4 x5 x6 x7) x1
      = Cert.ReferenceIdeal.Read.val_main_v134 (F := Ideal) x0 x1 x2 x3 x4 x5 x6 x7 := by
  rfl

/-- The precondition's last conjunct: every node's type word is 0 or 1. -/
theorem nodeTypes (hpre : Cert.Pre_KernelIdeal m) (c : Dev nD) (n : Fin 50000) :
    KLayer0.ntA m c (ix1 n) = 0#32 ∨ KLayer0.ntA m c (ix1 n) = 1#32 :=
  Cert.Proof.PreDecode.nodeType_of_pre _ _ _ _ _ _ _ _ _ _ _ _ (hpre c) n

/-- The first layer's results agree, entry by entry: both are the layer of the same data. -/
theorem table_eq (hpre : Cert.Pre_KernelIdeal m) (c : Dev nD) :
    KLayer1.tabA m ρ c
      = Cert.ReferenceIdeal.Read.val_main_v119 (F := Ideal) (KLayer0.nfA m c) (KLayer0.eiA m c) (KLayer0.etA m c) (KLayer0.ntA m c)
          (KLayer0.eWA m c) (KLayer0.ebA m c) (KLayer0.nWA m c) (KLayer0.nbA m c) := by
  funext i
  obtain ⟨n, j, rfl⟩ : ∃ (n : Fin 50000) (j : Fin 64), i = ix2 n j := ⟨i 0, i 1, eq_ix2 i⟩
  show KLayer0.outA m ρ c (ix2 n j) = _
  rw [KLayer0.value, Cert.Gnn.layerMasked_eq_layer _ _ _ _ (nodeTypes m hpre c), Cert.ReferenceIdeal.RefLayer0.value,
    KLayer0.feat_eq, feat0_bridge]

/-- Hence the second layer runs on the same table in both programs, and the results are one array. -/
theorem result_eq (hpre : Cert.Pre_KernelIdeal m) (c : Dev nD) :
    Cert.ReferenceIdeal.Read.val_main_v235 (F := Ideal) (KLayer0.nfA m c) (KLayer0.eiA m c) (KLayer0.etA m c) (KLayer0.ntA m c)
        (KLayer0.eWA m c) (KLayer0.ebA m c) (KLayer0.nWA m c) (KLayer0.nbA m c)
        (KLayer1.eWA m c) (KLayer1.ebA m c) (KLayer1.nWA m c) (KLayer1.nbA m c)
      = KLayer1.outA m ρ c := by
  funext i
  obtain ⟨n, j, rfl⟩ : ∃ (n : Fin 50000) (j : Fin 128), i = ix2 n j := ⟨i 0, i 1, eq_ix2 i⟩
  rw [Cert.ReferenceIdeal.RefLayer1.value, KLayer1.value, Cert.Gnn.layerMasked_eq_layer _ _ _ _ (nodeTypes m hpre c),
    KLayer1.feat_eq, table_eq m ρ hpre c, feat1_bridge]

end Cert.Proof.Join

end
-- ==== Proof.lean ====
import proofs.«420892_j79345225826944_1_alg».proof.Defs
import proofs.«420892_j79345225826944_1_alg».proof.Proof.Gen.Kernel
import proofs.«420892_j79345225826944_1_alg».proof.Proof.Gen.Kernel.Frame
import proofs.«420892_j79345225826944_1_alg».proof.Proof.Gen.KernelIdeal
import proofs.«420892_j79345225826944_1_alg».proof.Proof.Gen.KernelIdeal.Frame
import proofs.«420892_j79345225826944_1_alg».proof.Proof.Gen.ReferenceIdeal
import proofs.«420892_j79345225826944_1_alg».proof.Proof.Gen.Pre_finite_inputs
import proofs.«420892_j79345225826944_1_alg».proof.Proof.KRun
import proofs.«420892_j79345225826944_1_alg».proof.Proof.RefRun
import proofs.«420892_j79345225826944_1_alg».proof.Proof.Join
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no launch: its frame is its run with the result dropped. -/
theorem frame_ri : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

/-- Both runs end with one result array: the kernel's last write-back of its result buffer is the reference's last stage of arguments that agree. -/
theorem algebraic : Cert.algebraic_KernelIdeal_ReferenceIdeal := by
  intro m ρ m' ρ' hpre hagree
  refine ⟨fun c => Cert.KernelIdeal.Gen.W12 (F := Ideal) m ρ c (Proc.devRef .tc Cert.KernelIdeal.main_v95),
    Cert.KernelIdeal.KRun.run (F := Ideal) m ρ, ?_⟩
  refine (θ_run Cert.ReferenceIdeal.defs _ _).mono (fun _ h c => ⟨(h c).1.trans ?_, (h c).2⟩)
    (Cert.ReferenceIdeal.RefRun.run m' ρ')
  obtain ⟨h0, h1, h2, h3, h4, h5, h6, h7, h8, h9, h10, h11⟩ := hagree c
  rw [h0, h1, h2, h3, h4, h5, h6, h7, h8, h9, h10, h11]
  exact Cert.Proof.Join.result_eq m ρ hpre c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
